-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S2048x1024 : Shape := ⟨2, ![2048, 1024]⟩
abbrev S50257x1024 : Shape := ⟨2, ![50257, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v65 : IVec S1 1) (main_v67 : IVec S1 1) : IVec S_ 1 :=
  let main_v68 : IVec S1 1 := andi main_v65 main_v67
  let main_c_26 : IVec S_ 1 := constantI S_ 1 1#1
  let main_v69 : IVec S_ 1 := (fun x v => Host.reduce IntOp.andi x v reducesTo_S1_S_d0 h_S_) main_v68 main_c_26
  let main_v70 : IVec S_ 1 := andi main_v63 main_v69
  main_v70

def fn_part3 {F : FTy → Type} [FloatOps F] (main_arg0 : IVec S1 32) (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 0#32
  let main_v64 : IVec S1 32 := broadcastInDim S1 ![] bcast_S_S1 main_c_24
  let main_v65 : IVec S1 1 := cmpi .sge main_arg0 main_v64
  let main_c_25 : IVec S_ 32 := constantI S_ 32 50257#32
  let main_v66 : IVec S1 32 := broadcastInDim S1 ![] bcast_S_S1 main_c_25
  let main_v67 : IVec S1 1 := cmpi .slt main_arg0 main_v66
  fn_part4 (F := F) main_v63 main_v65 main_v67

def fn_part2 {F : FTy → Type} [FloatOps F] (main_arg0 : IVec S1 32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg0 main_arg12 main_arg13 main_v48 main_v49 main_v50

def fn_part1 {F : FTy → Type} [FloatOps F] (main_arg0 : IVec S1 32) (main_arg5 : FVec F S2048 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S1x1x1024 .f32) (main_arg2 : FVec F S2048x1024 .f32) (main_arg3 : FVec F S50257x1024 .f32) (main_arg4 : FVec F S2048x2048 .f32) (main_arg5 : FVec F S2048 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S2048x1024 : Shape := ⟨2, ![2048, 1024]⟩
abbrev S50257x1024 : Shape := ⟨2, ![50257, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S1x1024 : Shape := ⟨2, ![1, 1024]⟩
abbrev S_ : Shape := ⟨0, ![]⟩
abbrev S1x2048 : Shape := ⟨2, ![1, 2048]⟩
abbrev S1x3072 : Shape := ⟨2, ![1, 3072]⟩
abbrev S1x50257 : Shape := ⟨2, ![1, 50257]⟩
abbrev S1x1 : Shape := ⟨2, ![1, 1]⟩
abbrev S1024x1024 : Shape := ⟨2, ![1024, 1024]⟩

abbrev nBuf : Space → Nat
  | .hbm => 49
  | .vmem => 29
  | .smem => 1
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S2048x1024, .f32⟩
  | .hbm, ⟨3, _⟩ => ⟨S50257x1024, .f32⟩
  | .hbm, ⟨4, _⟩ => ⟨S2048x2048, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S1x1024, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S1x2048, .f32⟩
  | .hbm, ⟨23, _⟩ => ⟨S1x1024, .f32⟩
  | .hbm, ⟨24, _⟩ => ⟨S1x3072, .f32⟩
  | .hbm, ⟨25, _⟩ => ⟨S1x3072, .f32⟩
  | .hbm, ⟨26, _⟩ => ⟨S1x50257, .f32⟩
  | .hbm, ⟨27, _⟩ => ⟨S1x1024, .f32⟩
  | .hbm, ⟨28, _⟩ => ⟨S1x2048, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x50257, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1x1, .f32⟩
  | .hbm, ⟨39, _⟩ => ⟨S1x50257, .f32⟩
  | .hbm, ⟨40, _⟩ => ⟨S1x50257, .f32⟩
  | .hbm, ⟨41, _⟩ => ⟨S1x50257, .f32⟩
  | .hbm, ⟨42, _⟩ => ⟨S_, .f32⟩
  | .hbm, ⟨43, _⟩ => ⟨S1, .f32⟩
  | .hbm, ⟨44, _⟩ => ⟨S1x1, .f32⟩
  | .hbm, ⟨45, _⟩ => ⟨S1x1, .f32⟩
  | .hbm, ⟨46, _⟩ => ⟨S1x50257, .f32⟩
  | .hbm, ⟨47, _⟩ => ⟨S1x50257, .f32⟩
  | .hbm, ⟨48, _⟩ => ⟨S1x1x1024, .f32⟩
  | .local _ .vmem, ⟨0, _⟩ => ⟨S1x1024, .f32⟩
  | .local _ .vmem, ⟨1, _⟩ => ⟨S2048x1024, .f32⟩
  | .local _ .vmem, ⟨2, _⟩ => ⟨S2048x1024, .f32⟩
  | .local _ .vmem, ⟨3, _⟩ => ⟨S1x2048, .f32⟩
  | .local _ .vmem, ⟨4, _⟩ => ⟨S2048x1024, .f32⟩
  | .local _ .vmem, ⟨5, _⟩ => ⟨S1x1024, .f32⟩
  | .local _ .vmem, ⟨6, _⟩ => ⟨S1x2048, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S3072x1024, .f32⟩
  | .local _ .vmem, ⟨18, _⟩ => ⟨S3072x1024, .f32⟩
  | .local _ .vmem, ⟨19, _⟩ => ⟨S1x3072, .f32⟩
  | .local _ .vmem, ⟨20, _⟩ => ⟨S1x3072, .f32⟩
  | .local _ .vmem, ⟨21, _⟩ => ⟨S1x1024, .f32⟩
  | .local _ .vmem, ⟨22, _⟩ => ⟨S1x1024, .f32⟩
  | .local _ .vmem, ⟨23, _⟩ => ⟨S2048x1024, .f32⟩
  | .local _ .vmem, ⟨24, _⟩ => ⟨S2048x1024, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_cst : Ref sig .tc := ⟨.hbm, 33, rfl⟩
abbrev main_call1_v0 : Ref sig .tc := ⟨.hbm, 34, rfl⟩
abbrev main_call1_cst_0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_cst_1 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_v11 : Ref sig .tc := ⟨.hbm, 47, rfl⟩
abbrev main_v12 : Ref sig .tc := ⟨.hbm, 48, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc3_sem0_0 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c0_i32 : BitVec 32 := 0#32
  ![v0.toNat, 0]

def k0_chk1 (v0 : BitVec 32) : Prop :=
  (∀ a, (k0_off1 v0) a + S1x1024.size a ≤ S50257x1024.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x1024.size a ≤ S50257x1024.size a := fun v0 k0_hw1 => k0_hw1

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3072x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3072x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x3072 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x3072 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S1x1x1024_S1x1024 : S1x1x1024.ShapeCasts S1x1024
  bcast_S_S1 : S_.BroadcastsInDim S1 (![] : Fin 0 → Fin S1.rank)
  shapeCasts_S2048_S1x2048 : S2048.ShapeCasts S1x2048
  shapeCasts_S1024_S1x1024 : S1024.ShapeCasts S1x1024
  shapeCasts_S3072_S1x3072 : S3072.ShapeCasts S1x3072
  shapeCasts_S50257_S1x50257 : S50257.ShapeCasts S1x50257
  inb_S1_S1_0 : ∀ a, (![0] : Fin 1 → Nat) a + S1.size a ≤ S1.size a
  numel1_S1 : S1.numel = 1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S1x2048_S1 : S1x2048.Reduces [1] S1
  shapeCasts_S1_S1x1 : S1.ShapeCasts S1x1
  broadcasts_S1x1_S1x2048 : S1x1.Broadcasts S1x2048
  inb_S1024x1024_S1024x1024_0_0 : ∀ a, (![0, 0] : Fin 2 → Nat) a + S1024x1024.size a ≤ S1024x1024.size a
  h_S1024x1024 : 0 < S1024x1024.numel
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  reducesTo_S1x50257_S1_d1 : S1x50257.ReducesTo [1] S1
  h_S_ : 0 < S_.numel
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  shapeCasts_S1x1024_S1x1x1024 : S1x1024.ShapeCasts S1x1x1024
  dot_S1x1024_S2048x1024_S1x2048_1_1_0_0_n_n_wf : DotDims.WF S1x1024 S2048x1024 S1x2048 [1] [1] [0] [0] [] []
  dot_S1x2048_S2048x1024_S1x1024_1_0_0_1_n_n_wf : DotDims.WF S1x2048 S2048x1024 S1x1024 [1] [0] [0] [1] [] []
  dot_S1x1024_S1024x1024_S1x1024_1_1_0_0_n_n_wf : DotDims.WF S1x1024 S1024x1024 S1x1024 [1] [1] [0] [0] [] []
  dot_S1x1024_S3072x1024_S1x3072_1_1_0_0_n_n_wf : DotDims.WF S1x1024 S3072x1024 S1x3072 [1] [1] [0] [0] [] []
  hcc0_scratch1 : 8 + S_.numel ≤ 29
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S1x1024.size a ≤ S1x1024.size a
  hwx0_0 : ∀ i : grid0.Coords, EltTy.bits .f32 = 32 ∨ (Rect.block (s := S1x1024) S1x1024.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S2048x1024.size a ≤ S2048x2048.size a
  hwx0_1 : ∀ i : grid0.Coords, EltTy.bits .f32 = 32 ∨ (Rect.block (s := S2048x2048) S2048x1024.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S2048x1024.size a ≤ S2048x2048.size a
  hwx0_2 : ∀ i : grid0.Coords, EltTy.bits .f32 = 32 ∨ (Rect.block (s := S2048x2048) S2048x1024.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1x2048.size a ≤ S1x2048.size a
  hwx0_3 : ∀ i : grid0.Coords, EltTy.bits .f32 = 32 ∨ (Rect.block (s := S1x2048) S1x2048.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S2048x1024.size a ≤ S2048x1024.size a
  hwx0_4 : ∀ i : grid0.Coords, EltTy.bits .f32 = 32 ∨ (Rect.block (s := S2048x1024) S2048x1024.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S1x1024.size a ≤ S1x1024.size a
  hwx0_5 : ∀ i : grid0.Coords, EltTy.bits .f32 = 32 ∨ (Rect.block (s := S1x1024) S1x1024.size (cc0_transform_6 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_7 i = cc0_transform_7 i'
  hinb0_6 : ∀ (i : grid0.Coords) a, (cc0_transform_7 i a + 1) * S1x2048.size a ≤ S1x2048.size a
  hwx0_6 : ∀ i : grid0.Coords, EltTy.bits .f32 = 32 ∨ (Rect.block (s := S1x2048) S1x2048.size (cc0_transform_7 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_8 i = cc0_transform_8 i'
  hinb0_7 : ∀ (i : grid0.Coords) a, (cc0_transform_8 i a + 1) * S1x1024.size a ≤ S1x1024.size a
  hwx0_7 : ∀ i : grid0.Coords, EltTy.bits .f32 = 32 ∨ (Rect.block (s := S1x1024) S1x1024.size (cc0_transform_8 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x2048.size a
  hwx1_2 : ∀ i : grid1.Coords, EltTy.bits .f32 = 32 ∨ (Rect.block (s := S1024x2048) S1024x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x2048.size a
  hwx1_3 : ∀ i : grid1.Coords, EltTy.bits .f32 = 32 ∨ (Rect.block (s := S1024x2048) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3072x1024.size a ≤ S3072x1024.size a
  hwx2_2 : ∀ i : grid2.Coords, EltTy.bits .f32 = 32 ∨ (Rect.block (s := S3072x1024) S3072x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3072x1024.size a ≤ S3072x1024.size a
  hwx2_3 : ∀ i : grid2.Coords, EltTy.bits .f32 = 32 ∨ (Rect.block (s := S3072x1024) S3072x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x3072.size a ≤ S1x3072.size a
  hwx2_4 : ∀ i : grid2.Coords, EltTy.bits .f32 = 32 ∨ (Rect.block (s := S1x3072) S1x3072.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x3072.size a ≤ S1x3072.size a
  hwx2_5 : ∀ i : grid2.Coords, EltTy.bits .f32 = 32 ∨ (Rect.block (s := S1x3072) S1x3072.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x1024.size a
  hwx2_6 : ∀ i : grid2.Coords, EltTy.bits .f32 = 32 ∨ (Rect.block (s := S1x1024) S1x1024.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x1024.size a ≤ S1x1024.size a
  hwx3_0 : ∀ i : grid3.Coords, EltTy.bits .f32 = 32 ∨ (Rect.block (s := S1x1024) S1x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S2048x1024.size a < S50257x1024.size a
  hwx3_1 : ∀ i : grid3.Coords, EltTy.bits .f32 = 32 ∨ (Rect.unit (s := S50257x1024) (fun a => cc3_transform_1 i a * S2048x1024.size a) (fun a => (Pipeline.Clip.of (cc3_transform_1 i a) (S2048x1024.size a) (S50257x1024.size a)).extent (S2048x1024.size a)) fun a => Pipeline.Clip.inb (Pipeline.Clip.ok_of (hstart3_1 i a))).WholeWords (EltTy.packing .f32)
  hwxs3_1 : ∀ i : grid3.Coords, EltTy.bits .f32 = 32 ∨ (Rect.unit (s := S2048x1024) (fun _ => 0) (fun a => (Pipeline.Clip.of (cc3_transform_1 i a) (S2048x1024.size a) (S50257x1024.size a)).extent (S2048x1024.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1x2048.size a < S1x50257.size a
  hwx3_2 : ∀ i : grid3.Coords, EltTy.bits .f32 = 32 ∨ (Rect.unit (s := S1x50257) (fun a => cc3_transform_2 i a * S1x2048.size a) (fun a => (Pipeline.Clip.of (cc3_transform_2 i a) (S1x2048.size a) (S1x50257.size a)).extent (S1x2048.size a)) fun a => Pipeline.Clip.inb (Pipeline.Clip.ok_of (hstart3_2 i a))).WholeWords (EltTy.packing .f32)
  hwxs3_2 : ∀ i : grid3.Coords, EltTy.bits .f32 = 32 ∨ (Rect.unit (s := S1x2048) (fun _ => 0) (fun a => (Pipeline.Clip.of (cc3_transform_2 i a) (S1x2048.size a) (S1x50257.size a)).extent (S1x2048.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S1x2048.size a < S1x50257.size a
  hwx3_3 : ∀ i : grid3.Coords, EltTy.bits .f32 = 32 ∨ (Rect.unit (s := S1x50257) (fun a => cc3_transform_3 i a * S1x2048.size a) (fun a => (Pipeline.Clip.of (cc3_transform_3 i a) (S1x2048.size a) (S1x50257.size a)).extent (S1x2048.size a)) fun a => Pipeline.Clip.inb (Pipeline.Clip.ok_of (hstart3_3 i a))).WholeWords (EltTy.packing .f32)
  hwxs3_3 : ∀ i : grid3.Coords, EltTy.bits .f32 = 32 ∨ (Rect.unit (s := S1x2048) (fun _ => 0) (fun a => (Pipeline.Clip.of (cc3_transform_3 i a) (S1x2048.size a) (S1x50257.size a)).extent (S1x2048.size a)) fun a => (Nat.zero_add _).trans_le (Pipeline.Clip.extent_le (Pipeline.Clip.ok_of (hstart3_3 i a)))).WholeWords (EltTy.packing .f32)

variable [Facts₀]

abbrev cc0_scratch1 : DmaSems sig S_ := SemArray.consecutive 8 S_ hcc0_scratch1
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf

abbrev spec0_0 : Pipeline.WinSpec sig grid0.rank :=
  Pipeline.WinSpec.ofSpec (Memref.whole main_v0) S1x1024.size reads0_0 false true 1 stage0_0 sem0_0 nbuf0_0 hstage0_0

abbrev spec0_1 : Pipeline.WinSpec sig grid0.rank :=
  Pipeline.WinSpec.ofSpec (Memref.whole main_arg4) S2048x1024.size reads0_1 false true 1 stage0_1 sem0_1 nbuf0_1 hstage0_1

abbrev spec0_2 : Pipeline.WinSpec sig grid0.rank :=
  Pipeline.WinSpec.ofSpec (Memref.whole main_arg4) S2048x1024.size reads0_2 false true 1 stage0_2 sem0_2 nbuf0_2 hstage0_2

abbrev spec0_3 : Pipeline.WinSpec sig grid0.rank :=
  Pipeline.WinSpec.ofSpec (Memref.whole main_v2) S1x2048.size reads0_3 false true 1 stage0_3 sem0_3 nbuf0_3 hstage0_3

abbrev spec0_4 : Pipeline.WinSpec sig grid0.rank :=
  Pipeline.WinSpec.ofSpec (Memref.whole main_arg2) S2048x1024.size reads0_4 false true 1 stage0_4 sem0_4 nbuf0_4 hstage0_4

abbrev spec0_5 : Pipeline.WinSpec sig grid0.rank :=
  Pipeline.WinSpec.ofSpec (Memref.whole main_v7_0) S1x1024.size reads0_5 true true 1 stage0_5 sem0_5 nbuf0_5 hstage0_5

abbrev spec0_6 : Pipeline.WinSpec sig grid0.rank :=
  Pipeline.WinSpec.ofSpec (Memref.whole main_v7_1) S1x2048.size reads0_6 true true 1 stage0_6 sem0_6 nbuf0_6 hstage0_6

abbrev spec0_7 : Pipeline.WinSpec sig grid0.rank :=
  Pipeline.WinSpec.ofSpec (Memref.whole main_v7_2) S1x1024.size reads0_7 true true 1 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_1 | 1 => cc0_transform_2 | 2 => cc0_transform_3 | 3 => cc0_transform_4 | 4 => cc0_transform_5 | 5 => cc0_transform_6 | 6 => cc0_transform_7 | 7 => cc0_transform_8 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))
abbrev win1_0 : Pipeline.Window sig grid1 :=
  Pipeline.Window.ofSpec (Memref.whole main_v7_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7_2) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x1024.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v8) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S3072x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S3072x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x3072.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1x3072.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S1x1024.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v9) S1x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg12) S2048x1024.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v6) S1x2048.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v10) S1x2048.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where
  harr0 : ∀ w, (spec0 w).arr.IsWhole

variable [Facts]
-- ==== ReferenceIdeal.lean ====
abbrev S1 : Shape := ⟨1, ![1]⟩
abbrev S1x1x1024 : Shape := ⟨3, ![1, 1, 1024]⟩
abbrev S2048x1024 : Shape := ⟨2, ![2048, 1024]⟩
abbrev S50257x1024 : Shape := ⟨2, ![50257, 1024]⟩
abbrev S2048x2048 : Shape := ⟨2, ![2048, 2048]⟩
abbrev S2048 : Shape := ⟨1, ![2048]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S2048x1024, .f32⟩
  | .hbm, ⟨3, _⟩ => ⟨S50257x1024, .f32⟩
  | .hbm, ⟨4, _⟩ => ⟨S2048x2048, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x2048, .f32⟩
  | .hbm, ⟨42, _⟩ => ⟨S1x2048, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S2048x2048_S2048x2048_1_0 : S2048x2048.Transposes [1, 0] S2048x2048
  bcast_S2048_S1x2048_1 : S2048.BroadcastsInDim S1x2048 (![1] : Fin 1 → Fin S1x2048.rank)
  reducesTo_S1x2048_S1_d1 : S1x2048.ReducesTo [1] S1
  h_S_ : 0 < S_.numel
  bcast_S1x1_S1x2048_0_1 : S1x1.BroadcastsInDim S1x2048 (![0, 1] : Fin 2 → Fin S1x2048.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x2048_S1x2048_1_0_0_1_n_n_wf : DotDims.WF S1x2048 S2048x2048 S1x2048 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.R1.lean ====
import proofs.«411147_j8194797600876_3_alg».proof.Proof.Gen.Kernel.Launch
import proofs.«411147_j8194797600876_3_alg».proof.Proof.Gen.Kernel.Skeleton
import proofs.«411147_j8194797600876_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rRow : Rect S1x1024 := Rect.unit (s := S1x1024) ![0, 0] S1x1024.size inb_S1x1024_S1x1024_0_0
abbrev rMat : Rect S1024x1024 := Rect.unit (s := S1024x1024) ![0, 0] S1024x1024.size inb_S1024x1024_S1024x1024_0_0

def out1_5 (x a : Vec F S1x1024 .f32) (w0 w1 : Vec F S1024x1024 .f32) (b : Vec F S1x1024 .f32) : Vec F S1x1024 .f32 :=
  View.canon [⟨rRow, k1_pay1 (View.ld x rRow) (View.ld w0 rMat) (View.ld a rRow) (View.ld w1 rMat) (View.ld b rRow)⟩]

def q1 (w : Fin cfg1.W) : PosShare TreeShare :=
  if w = 2 then fullShare.left else if w = 3 then fullShare.right else fullShare

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q1
  owed _ := 0

-- At every point an input window's `before` is the window's block of the entry contents.
theorem before1_0 (c t d) : (dat1 V c).before 0 t d = iblk1 V c 0 t := (dat1 V c).before_fetched 0 t (fetch1_0 t) d
theorem before1_1 (c t d) : (dat1 V c).before 1 t d = iblk1 V c 1 t := (dat1 V c).before_fetched 1 t (fetch1_1 t) d
theorem before1_2 (c t d) : (dat1 V c).before 2 t d = iblk1 V c 2 t := (dat1 V c).before_fetched 2 t (fetch1_2 t) d
theorem before1_3 (c t d) : (dat1 V c).before 3 t d = iblk1 V c 3 t := (dat1 V c).before_fetched 3 t (fetch1_3 t) d
theorem before1_4 (c t d) : (dat1 V c).before 4 t d = iblk1 V c 4 t := (dat1 V c).before_fetched 4 t (fetch1_4 t) d

-- The body reads its five inputs and overwrites the whole output with one payload of them.
theorem body_obligation1 (c : Dev nD) : BodyObligation (dat1 (F := F) V c) (defs₀ (F := F)) Variants.none () Set.univ := fun t => by
  rw [bigSep_W1, bigSep_W1]
  show _ ⊢ wp frame _ _ (bodyAt1 t) _
  unfold bodyAt1
  simp only [before1_0, before1_1, before1_2, before1_3, before1_4, cc1__comb_kernel_eq_skeleton]
  dsimp only [dat1]
  unfold cc1__comb_kernel_skel owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  iexists _; isplitr
  swap; · iexact H5
  ipureintro
  rw [← h0, ← h1, ← h2, ← h3, ← h4]
  exact View.read_writes_eq_canon _ _ _ fun y => View.cover_of_tiled _ S1x1024.size (by rfl) y

theorem ld_unit_zero {S : Shape} {e : EltTy} {Val : EltTy → Type} (X : S.Idx → Val e) {off : Fin S.rank → Nat}
    (h : off = fun _ => 0) (inb : ∀ a, off a + S.size a ≤ S.size a) : View.ld X (Rect.unit off S.size inb) = X :=
  View.ld_unit_zero h inb X

theorem canon_unit_zero {S : Shape} {e : EltTy} {Val : EltTy → Type} [∀ e, Nonempty (Val e)] {off : Fin S.rank → Nat}
    (h : off = fun _ => 0) (inb : ∀ a, off a + S.size a ≤ S.size a) (p : S.Idx → Val e) :
    View.canon [(⟨Rect.unit off S.size inb, p⟩ : View.Piece Val S e)] = p :=
  View.canon_unit_zero h inb p

def wLo1 (c : Dev nD) : Vec F S1024x1024 .f32 :=
  fun y => V c main_arg6 (ValueIdx.ix2 (n0 := 1024) (n1 := 2048) ⟨(y 0).val, (y 0).isLt⟩ ⟨(y 1).val, Nat.lt_of_lt_of_le (y 1).isLt (by decide)⟩)
def wHi1 (c : Dev nD) : Vec F S1024x1024 .f32 :=
  fun y => V c main_arg6 (ValueIdx.ix2 (n0 := 1024) (n1 := 2048) ⟨(y 0).val, (y 0).isLt⟩ ⟨1024 + (y 1).val, Nat.add_lt_add_left (y 1).isLt 1024⟩)

-- The row windows' blocks are their whole arrays; the two weight windows' blocks are the column halves.
theorem iblk1_eq (c : Dev nD) (t : Fin cfg1.N) : iblk1 V c 0 t = V c main_v7_0 ∧ iblk1 V c 1 t = V c main_v7_2
    ∧ iblk1 V c 4 t = V c main_v3 ∧ iblk1 V c 2 t = wLo1 V c ∧ iblk1 V c 3 t = wHi1 V c := by
  refine ⟨?_, ?_, ?_, ?_, ?_⟩
  iterate 3 exact Memref.read_access_unit_zero (Elt F) _ (funext fun a => by fin_cases a <;> rfl) _ _
  all_goals
    funext y
    unfold iblk1
    rw [View.read_apply]
    refine congrArg (V c main_arg6) (Shape.idx_ext₂ ?_ ?_)
  · show 0 * 1024 + 1 * (y 0).val = (y 0).val; omega
  · show 0 * 1024 + 1 * (y 1).val = (y 1).val; omega
  · show 0 * 1024 + 1 * (y 0).val = (y 0).val; omega
  · show 1 * 1024 + 1 * (y 1).val = 1024 + (y 1).val; omega

-- The grid has one point and the output's block is its whole array, so the array ends as the payload at the entry contents.
theorem final1_V (c : Dev nD) : (dat1 V c).arrAt 5 cfg1.N
    = k1_pay1 (V c main_v7_0) (wLo1 V c) (V c main_v7_2) (wHi1 V c) (V c main_v3) := by
  obtain ⟨h0, h1, h4, h2, h3⟩ := iblk1_eq V c t1_0
  have z : (![0, 0] : Fin 2 → Nat) = fun _ => 0 := funext fun a => by fin_cases a <;> rfl
  rw [show cfg1.N = t1_0.val + 1 from rfl, (dat1 V c).arrAt_succ 5 t1_0, if_pos (flush1_5 _)]
  dsimp only [Dat.flushed, dat1]
  refine (Memref.write_access_unit_zero_univ (Elt F) main_v8 (funext fun a => by fin_cases a <;> rfl) _ _ _).trans ?_
  show out1_5 _ _ _ _ _ = _
  unfold out1_5
  simp only [h0, h1, h2, h3, h4, ld_unit_zero (S := S1x1024) _ z, ld_unit_zero (S := S1024x1024) _ z]
  exact canon_unit_zero (S := S1x1024) z _ _

-- The six array holdings are the five buffers, the weight array's share dealt by halves to windows 2 and 3.
theorem arrays1 (c : Dev nD) (V' : (b : Ref sig .tc) → Buf (Elt F) ((c : Thread nD τ).loc b)) :
    ((dat1 V c).arrays fun w => V' (Pipeline.arrRef spec1 w) : sProp 𝕄) ⊣⊢ Pipeline.arrBufs spec1 c V' := by
  unfold Dat.arrays Pipeline.arrBufs
  rw [bigSep_W1, BI.bigSep_eq_bigSepL_of_eq [main_v7_0, main_v7_2, main_arg6, main_v3, main_v8] (by decide) (by decide)]
  simp only [View.set_whole]
  exact sep_congr_right (sep_congr_right (sep_assoc.symm.trans
    (sep_congr_left (pointsTo_share (PosShare.mem_left_op_right fullShare)).symm)))

theorem entry_arrays1 (c : Dev nD) :
    (Pipeline.arrBufs spec1 c (V c) : sProp 𝕄) ⊢ (dat1 V c).arrays ((dat1 V c).arrAt · 0) :=
  (arrays1 V c (V c)).2

theorem exit_arrays1 (c : Dev nD) (V' : (b : Ref sig .tc) → Buf (Elt F) ((c : Thread nD τ).loc b))
    (hF : ∀ w, (dat1 V c).arrAt w cfg1.N = V' (Pipeline.arrRef spec1 w)) :
    (dat1 V c).arrays ((dat1 V c).arrAt · cfg1.N) ⊢ (Pipeline.arrBufs spec1 c V' : sProp 𝕄) := by
  rw [funext hF]; exact (arrays1 V c V').1

end Cert.Kernel.R1

end
-- ==== Proof.K.R2.lean ====
import proofs.«411147_j8194797600876_3_alg».proof.Proof.Gen.Kernel.Launch
import proofs.«411147_j8194797600876_3_alg».proof.Proof.Gen.Kernel.Skeleton
import proofs.«411147_j8194797600876_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

noncomputable section

namespace Cert.Kernel.R2

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rRow : Rect S1x1024 := Rect.unit (s := S1x1024) ![0, 0] S1x1024.size inb_S1x1024_S1x1024_0_0
abbrev rMat : Rect S3072x1024 := Rect.unit (s := S3072x1024) ![0, 0] S3072x1024.size inb_S3072x1024_S3072x1024_0_0

theorem zeros2 : (![0, 0] : Fin 2 → Nat) = fun _ => 0 := funext fun a => by fin_cases a <;> rfl

/-- The new hidden row as a function of the six inputs' contents, in window order. -/
def out2_6 (x0 x1 : Vec F S1x1024 .f32) (x2 x3 : Vec F S3072x1024 .f32) (x4 x5 : Vec F S1x3072 .f32) : Vec F S1x1024 .f32 :=
  k2_pay1 x0 x1 x2 x4 x3 x5

/-- The body leaves its six inputs as they were and the seventh memref at `out2_6` of their contents. -/
theorem sound_kernel2 {c : Dev nD} (i : grid2.Coords) {a1 a2 a7 : Memref sig .tc .vmem S1x1024 .f32}
    {a3 a4 : Memref sig .tc .vmem S3072x1024 .f32} {a5 a6 : Memref sig .tc .vmem S1x3072 .f32}
    (h1 : a1.IsWhole) (h2 : a2.IsWhole) (h3 : a3.IsWhole) (h4 : a4.IsWhole) (h5 : a5.IsWhole) (h6 : a6.IsWhole) (h7 : a7.IsWhole)
    {x0 x1 d : Vec F S1x1024 .f32} {x2 x3 : Vec F S3072x1024 .f32} {x4 x5 : Vec F S1x3072 .f32} {K : PUnit → sProp 𝕄} :
    owns c.tc a1 fullShare x0 ⊢ owns c.tc a2 fullShare x1 -∗ owns c.tc a3 fullShare x2 -∗ owns c.tc a4 fullShare x3
      -∗ owns c.tc a5 fullShare x4 -∗ owns c.tc a6 fullShare x5 -∗ owns c.tc a7 fullShare d
      -∗ (owns c.tc a1 fullShare x0 ∗ owns c.tc a2 fullShare x1 ∗ owns c.tc a3 fullShare x2 ∗ owns c.tc a4 fullShare x3
          ∗ owns c.tc a5 fullShare x4 ∗ owns c.tc a6 fullShare x5 ∗ owns c.tc a7 fullShare (out2_6 x0 x1 x2 x3 x4 x5) -∗ K ⟨⟩)
      -∗ wp frame (wpE (defs₀ (F := F)) Variants.none c none) Set.univ (cc2__gru_kernel i a1 h1 a2 h2 a3 h3 a4 h4 a5 h5 a6 h6 a7 h7) K := by
  unfold owns
  iintro ⟨%f0, %e0, H0⟩ ⟨%f1, %e1, H1⟩ ⟨%f2, %e2, H2⟩ ⟨%f3, %e3, H3⟩ ⟨%f4, %e4, H4⟩ ⟨%f5, %e5, H5⟩ ⟨%f6, -, H6⟩ Hk
  subst e0 e1 e2 e3 e4 e5
  sl_unfold [cc2__gru_kernel]
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  iexists _; isplitr; swap; iexact H6; ipureintro
  rw [View.read_writes_eq_canon _ _ _ fun y => ⟨_, List.mem_singleton_self _, View.mem_set_unit_zero zeros2 inb_S1x1024_S1x1024_0_0 y⟩,
    View.canon_unit_zero zeros2]
  unfold out2_6
  congr 1 <;> exact View.ld_unit_zero zeros2 _ _

/-- The proof data: the arrays as found, every input left at its block, the output at `out2_6` of the six input blocks. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem body_obligation2 (c : Dev nD) : BodyObligation (dat2 (F := F) V c) (defs₀ (F := F)) Variants.none () Set.univ := fun t => by
  rw [bigSep_W2, bigSep_W2]
  simp only [Dat.before_fetched _ _ _ (fetch2_0 t), Dat.before_fetched _ _ _ (fetch2_1 t), Dat.before_fetched _ _ _ (fetch2_2 t),
    Dat.before_fetched _ _ _ (fetch2_3 t), Dat.before_fetched _ _ _ (fetch2_4 t), Dat.before_fetched _ _ _ (fetch2_5 t)]
  dsimp only [dat2]
  iintro ⟨HΦ, Ho, ⟨%_, H0⟩, ⟨%_, H1⟩, ⟨%_, H2⟩, ⟨%_, H3⟩, ⟨%_, H4⟩, ⟨%_, H5⟩, ⟨%_, H6⟩⟩
  iapply sound_kernel2 (grid2.coords t) (hstage2_0 _) (hstage2_1 _) (hstage2_2 _) (hstage2_3 _) (hstage2_4 _) (hstage2_5 _) (hstage2_6 _) $$ H0 H1 H2 H3 H4 H5 H6
  iintro H
  iframe HΦ
  isplitl [Ho] <;> [iexact Ho; iexact H]

/-- Each window's one block is its whole array, so the output array ends at the payload of the six input arrays. -/
theorem final2 (c : Dev nD) :
    (dat2 V c).arrAt 6 cfg2.N
      = k2_pay1 (V c main_v8) (V c main_v0) (V c main_arg8) (V c main_v4) (V c main_arg9) (V c main_v5) := by
  rw [show cfg2.N = t2_0.val + 1 from rfl, (dat2 V c).arrAt_succ 6 t2_0, if_pos (flush2_6 _)]
  refine Eq.trans (Memref.write_access_unit_zero_univ (Elt F) main_v9 (funext fun a => by fin_cases a <;> decide) _ _ _) ?_
  change k2_pay1 _ _ _ _ _ _ = _
  congr 1 <;> exact Memref.read_access_unit_zero (Elt F) _ (funext fun a => by fin_cases a <;> decide) _ _

theorem final2_in (c : Dev nD) (w : Fin cfg2.W) (hw : w ≠ 6) : (dat2 V c).arrAt w cfg2.N = V c (Pipeline.arrRef spec2 w) :=
  (dat2 V c).arrAt_in w (by revert w; decide) _

end Cert.Kernel.R2

end
-- ==== Proof.K.Fold.lean ====
/- The buffers' contents between the program's items: the launch contents after the opening host stretches, then each
   region's results written over them in turn, then the two closing host stretches. -/
import proofs.«411147_j8194797600876_3_alg».proof.Proof.Gen.Kernel.Regions
import proofs.«411147_j8194797600876_3_alg».proof.Proof.Gen.Kernel.Skeleton
import proofs.«411147_j8194797600876_3_alg».proof.Proof.Gen.Kernel.Points
import proofs.«411147_j8194797600876_3_alg».proof.Proof.K.R1
import proofs.«411147_j8194797600876_3_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]

local notation "𝕄" => MT nD τ sig Unit (Elt F) ℕ (Pipeline.UD sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev E (c : Dev nD) : sProp 𝕄 := iprop((∃ r, prngReg c r) ∗ ∃ W, owes (c : Thread nD τ) (0 : CellTallies nD τ sig Unit) W)

abbrev W3 : (c : Dev nD) → (b : Ref sig .tc) → Buf (Elt F) ((c : Thread nD τ).loc b) := fun c b => V3 m c b

section Fold
variable (a0 : (pcfg0 (F := F)).Adm) (d0 : (c : Dev nD) → Dat τ (Elt F) Unit ℕ (Pipeline.UD sig nD τ) ℕ (cfg0 a0) c)

def x70 (c : Dev nD) : Buf (Elt F) ((c : Thread nD τ).loc main_v7_0) := (d0 c).arrAt 5 (cfg0 a0).N
def x71 (c : Dev nD) : Buf (Elt F) ((c : Thread nD τ).loc main_v7_1) := (d0 c).arrAt 6 (cfg0 a0).N
def x72 (c : Dev nD) : Buf (Elt F) ((c : Thread nD τ).loc main_v7_2) := (d0 c).arrAt 7 (cfg0 a0).N
def U4 (c : Dev nD) : Valuation τ sig (Elt F) :=
  Function.update (Function.update (Function.update (V3 m c) main_v7_0 (x70 a0 d0 c)) main_v7_1 (x71 a0 d0 c)) main_v7_2 (x72 a0 d0 c)
abbrev W4 : (c : Dev nD) → (b : Ref sig .tc) → Buf (Elt F) ((c : Thread nD τ).loc b) := fun c b => U4 m a0 d0 c b
def x8 (c : Dev nD) : Buf (Elt F) ((c : Thread nD τ).loc main_v8) := (R1.dat1 (W4 m a0 d0) c).arrAt 5 cfg1.N
def U5 (c : Dev nD) : Valuation τ sig (Elt F) :=
  Function.update (U4 m a0 d0 c) main_v8 (x8 m a0 d0 c)
abbrev W5 : (c : Dev nD) → (b : Ref sig .tc) → Buf (Elt F) ((c : Thread nD τ).loc b) := fun c b => U5 m a0 d0 c b
def x9 (c : Dev nD) : Buf (Elt F) ((c : Thread nD τ).loc main_v9) := (R2.dat2 (W5 m a0 d0) c).arrAt 6 cfg2.N
def U6 (c : Dev nD) : Valuation τ sig (Elt F) :=
  Function.update (U5 m a0 d0 c) main_v9 (x9 m a0 d0 c)
abbrev W6 : (c : Dev nD) → (b : Ref sig .tc) → Buf (Elt F) ((c : Thread nD τ).loc b) := fun c b => U6 m a0 d0 c b
def U7 (c : Dev nD) (x : Buf (Elt F) ((c : Thread nD τ).loc main_v10)) : Valuation τ sig (Elt F) :=
  Function.update (U6 m a0 d0 c) main_v10 x
def U8 (c : Dev nD) (x : Buf (Elt F) ((c : Thread nD τ).loc main_v10)) : Valuation τ sig (Elt F) := StableHlo.after hostOps4 (U7 m a0 d0 c x)
def U9 (c : Dev nD) (x : Buf (Elt F) ((c : Thread nD τ).loc main_v10)) : Valuation τ sig (Elt F) := StableHlo.after hostOps4_1 (U8 m a0 d0 c x)

theorem U4_of (c : Dev nD) (r : Ref sig .tc) (h : r ∉ ([main_v7_0, main_v7_1, main_v7_2] : List (Ref sig .tc))) : U4 m a0 d0 c r = V3 m c r := by
  have h0 : (Proc.devRef .tc r : DevRef τ sig) ≠ Proc.devRef .tc main_v7_0 := StableHlo.devRef_ne_of_ne (List.ne_of_not_mem_cons h)
  have h1 : (Proc.devRef .tc r : DevRef τ sig) ≠ Proc.devRef .tc main_v7_1 := StableHlo.devRef_ne_of_ne (List.ne_of_not_mem_cons (List.not_mem_of_not_mem_cons h))
  have h2 : (Proc.devRef .tc r : DevRef τ sig) ≠ Proc.devRef .tc main_v7_2 := StableHlo.devRef_ne_of_ne (List.ne_of_not_mem_cons (List.not_mem_of_not_mem_cons (List.not_mem_of_not_mem_cons h)))
  unfold U4
  rw [Function.update_of_ne h2, Function.update_of_ne h1, Function.update_of_ne h0]
theorem U5_of (c : Dev nD) (r : Ref sig .tc) (h : r ≠ main_v8) : U5 m a0 d0 c r = U4 m a0 d0 c r := by
  unfold U5; rw [Function.update_of_ne (StableHlo.devRef_ne_of_ne h : (Proc.devRef .tc r : DevRef τ sig) ≠ Proc.devRef .tc main_v8)]
theorem U6_of (c : Dev nD) (r : Ref sig .tc) (h : r ≠ main_v9) : U6 m a0 d0 c r = U5 m a0 d0 c r := by
  unfold U6; rw [Function.update_of_ne (StableHlo.devRef_ne_of_ne h : (Proc.devRef .tc r : DevRef τ sig) ≠ Proc.devRef .tc main_v9)]
theorem U7_of (c : Dev nD) (x) (r : Ref sig .tc) (h : r ≠ main_v10) : U7 m a0 d0 c x r = U6 m a0 d0 c r := by
  unfold U7; rw [Function.update_of_ne (StableHlo.devRef_ne_of_ne h : (Proc.devRef .tc r : DevRef τ sig) ≠ Proc.devRef .tc main_v10)]
theorem U6_v9 (c : Dev nD) : U6 m a0 d0 c main_v9 = x9 m a0 d0 c := by
  unfold U6; rw [Function.update_self]
theorem U5_v8 (c : Dev nD) : U5 m a0 d0 c main_v8 = x8 m a0 d0 c := by
  unfold U5; rw [Function.update_self]
theorem U7_v10 (c : Dev nD) (x) : U7 m a0 d0 c x main_v10 = x := by
  unfold U7; rw [Function.update_self]

end Fold

section Fold2
variable (a0 : (pcfg0 (F := F)).Adm) (d0 : (c : Dev nD) → Dat τ (Elt F) Unit ℕ (Pipeline.UD sig nD τ) ℕ (cfg0 a0) c)
theorem U4_v7_0 (c : Dev nD) : U4 m a0 d0 c main_v7_0 = x70 a0 d0 c := by
  unfold U4
  rw [Function.update_of_ne (StableHlo.devRef_ne_of_ne (by decide) : (Proc.devRef .tc main_v7_0 : DevRef τ sig) ≠ Proc.devRef .tc main_v7_2),
    Function.update_of_ne (StableHlo.devRef_ne_of_ne (by decide) : (Proc.devRef .tc main_v7_0 : DevRef τ sig) ≠ Proc.devRef .tc main_v7_1), Function.update_self]
theorem U4_v7_1 (c : Dev nD) : U4 m a0 d0 c main_v7_1 = x71 a0 d0 c := by
  unfold U4
  rw [Function.update_of_ne (StableHlo.devRef_ne_of_ne (by decide) : (Proc.devRef .tc main_v7_1 : DevRef τ sig) ≠ Proc.devRef .tc main_v7_2), Function.update_self]
theorem U4_v7_2 (c : Dev nD) : U4 m a0 d0 c main_v7_2 = x72 a0 d0 c := by
  unfold U4; rw [Function.update_self]
end Fold2

end Cert.Kernel.Run

end
-- ==== Proof.K.R3.lean ====
import proofs.«411147_j8194797600876_3_alg».proof.Proof.Gen.Kernel.Launch
import proofs.«411147_j8194797600876_3_alg».proof.Proof.Gen.Kernel.Skeleton
import proofs.«411147_j8194797600876_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic
import Idealize.ShloMosaic.Lib.Pipeline.TableIdle

set_option maxRecDepth 16384

noncomputable section

namespace Cert.Kernel.R3

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem zeros2 : (![0, 0] : Fin 2 → Nat) = fun _ => 0 := funext fun a => by fin_cases a <;> rfl

def out3_3 (x0 : Vec F S1x1024 .f32) (x1 : Vec F S2048x1024 .f32) (x2 : Vec F S1x2048 .f32) : Vec F S1x2048 .f32 :=
  k3_pay1 x0 x1 x2

set_option maxHeartbeats 1000000 in
theorem sound_kernel3 (c : Dev nD) (E : Set ℕ) (i : grid3.Coords)
    (arg1 : Memref sig .tc .vmem S1x1024 .f32) (harg1 : arg1.IsWhole)
    (arg2 : Memref sig .tc .vmem S2048x1024 .f32) (harg2 : arg2.IsWhole)
    (arg3 : Memref sig .tc .vmem S1x2048 .f32) (harg3 : arg3.IsWhole)
    (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out3_3 x0 x1 x2)) -∗ K ⟨⟩))
      ⊢ wp frame (wpE (defs₀ (F := F)) Variants.none c none) E (cc3__outproj_kernel i arg1 harg1 arg2 harg2 arg3 harg3 arg4 harg4) K := by
  simp only [cc3__outproj_kernel_eq_skeleton, owns_eq_rep]; unfold cc3__outproj_kernel_skel
  iintro ⟨H0, H1, H2, ⟨%d, H3⟩, Hk⟩
  sl_exec
  sl_step
  iapply Hk
  iframe H0 H1 H2
  rw [← owns_eq_rep]; unfold owns
  iexists _; isplitr
  swap; · iexact H3
  ipureintro
  exact (View.read_writes_eq_canon _ _ _ fun y => ⟨_, List.mem_singleton_self _, View.mem_set_unit_zero zeros2 inb_S1x2048_S1x2048_0_0 y⟩).trans
    ((View.canon_unit_zero zeros2 _ _).trans (by
      show k3_pay1 _ _ _ = k3_pay1 _ _ _
      congr 1 <;> exact (View.ld_unit_zero zeros2 _ _).trans (View.read_rep _ _)))

def RowLocal3 (F : FTy → Type) [FloatOps F] : Prop :=
  ∀ (l : FVec F S1x1024 .bf16) (r r' : FVec F S2048x1024 .bf16) (acc : FVec F S1x2048 .f32) (j : S1x2048.Idx),
    (∀ y : S2048x1024.Idx, (y 0).val = (j 1).val → r y = r' y) →
      matmul dot_S1x1024_S2048x1024_S1x2048_1_1_0_0_n_n none l r acc j
        = matmul dot_S1x1024_S2048x1024_S1x2048_1_1_0_0_n_n none l r' acc j

-- Exactly, the entry is the accumulator plus the sum over `k` of `x[0, k] · W[j, k]`.
theorem rowLocal3_ideal : RowLocal3 Ideal := by
  intro l r r' acc j h
  show FloatOps.matmul _ none l r acc j = FloatOps.matmul _ none l r' acc j
  rw [Ideal.matmul_apply, Ideal.matmul_apply]
  refine congrArg (acc j + ·) (Finset.sum_congr rfl fun k _ => ?_)
  rw [h _ rfl]

-- Column `j` of `x · Wᵀ + b` depends on `b` at `j` and, the contraction being by rows, on row `j` of `W` only.
theorem cut_out3_3 (hloc : RowLocal3 F) (i : grid3.Coords) (x0 : Vec F S1x1024 .f32) {x1 x1' : Vec F S2048x1024 .f32}
    {x2 x2' : Vec F S1x2048 .f32} (h1 : win3_1.cut i x1 = win3_1.cut i x1') (h2 : win3_2.cut i x2 = win3_2.cut i x2') :
    win3_3.cut i (out3_3 x0 x1 x2) = win3_3.cut i (out3_3 x0 x1' x2') := by
  funext j
  show out3_3 x0 x1 x2 (win3_3.xinj i j) = out3_3 x0 x1' x2' (win3_3.xinj i j)
  unfold out3_3 k3_pay1
  simp only [shapeCast_self]
  refine congrArg₂ FloatOps.addf (hloc _ _ _ _ _ fun y hy => ?_) (congrFun h2 j)
  have hy' : ∀ a, (y a).val < win3_1.xsize i a := fun
    | ⟨0, _⟩ => lt_of_eq_of_lt hy (j 1).isLt
    | ⟨1, _⟩ => (y 1).isLt
  exact congrArg (FloatOps.truncf .bf16 _) (congrFun h1 fun a => ⟨(y a).val, hy' a⟩)

abbrev z3 : Elt F .f32 := Scalar.ofBits .f32 0#32

def blk3_1 (c : Dev nD) (t : Fin cfg3.N) : S2048x1024.Idx → Elt F .f32 :=
  win3_1.fill (grid3.coords t) (fun _ => z3) (iblk3 V c 1 t)
def blk3_2 (c : Dev nD) (t : Fin cfg3.N) : S1x2048.Idx → Elt F .f32 :=
  win3_2.fill (grid3.coords t) (fun _ => z3) (iblk3 V c 2 t)

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => blk3_1 V c t
    | ⟨2, _⟩ => blk3_2 V c t
    | ⟨3, _⟩ => out3_3 (iblk3 V c 0 t) (blk3_1 V c t) (blk3_2 V c t)
  Φ _ := Pipeline.ΦA spec3 c
  q _ := fullShare
  owed _ := 0

theorem after3_3 (c : Dev nD) (t : Fin cfg3.N) :
    (dat3 V c).after 3 t = out3_3 (iblk3 V c 0 t) (blk3_1 V c t) (blk3_2 V c t) := by dsimp only [dat3]

theorem keep3 (c : Dev nD) (t : Fin cfg3.N) : ∀ w : Fin cfg3.W, (cfg3.win w).isOut = false →
    (cfg3.win w).cut (cfg3.grid.coords t) ((dat3 V c).after w t) = (dat3 V c).blockOf w t
  | ⟨0, _⟩, _ => rfl
  | ⟨1, _⟩, _ => win3_1.cut_fill _ _ _
  | ⟨2, _⟩, _ => win3_2.cut_fill _ _ _
  | ⟨3, _⟩, h => nomatch h

theorem before3 (c : Dev nD) (t : Fin cfg3.N) : ∀ (w : Fin cfg3.W) (_ : (cfg3.win w).isOut = false) (d),
    (dat3 V c).before w t d = (dat3 V c).fetched w t d
  | ⟨0, _⟩, hw, d => (dat3 V c).before_in_eq_fetched _ hw (fun _ => rfl) (fun _ _ _ => rfl) (fun t => keep3 V c t _ hw) t d
  | ⟨1, _⟩, _, d => (dat3 V c).before_fetched _ t (fetch3_1 t) d
  | ⟨2, _⟩, _, d => (dat3 V c).before_fetched _ t (fetch3_2 t) d
  | ⟨3, _⟩, h, _ => nomatch h

theorem cut_before3 (c : Dev nD) (t : Fin cfg3.N) (w : Fin cfg3.W) (hw : (cfg3.win w).isOut = false) (d) :
    (cfg3.win w).cut (cfg3.grid.coords t) ((dat3 V c).before w t d)
      = (cfg3.win w).cut (cfg3.grid.coords t) ((dat3 V c).after w t) := by
  rw [before3 V c t w hw, keep3 V c t w hw]; exact (dat3 V c).cut_fetched w t d

-- If `X` and `Y` agree on a part, `X` is `Y` there and something elsewhere.
theorem owns_loose {G : Pipeline.Grid} (w : Window sig G) (i : G.Coords) (c : Dev nD) {sp : Space}
    (m : Memref sig .tc sp w.block w.elt) {X Y : w.block.Idx → Elt F w.elt} (h : w.cut i X = w.cut i Y) :
    owns (c : Thread nD τ) m fullShare X ⊢ (∃ d, owns (c : Thread nD τ) m fullShare (w.fill i d (w.cut i Y)) : sProp 𝕄) := by
  iintro H; iexists X; rw [w.fill_congr_cut i h]; iexact H

theorem sound_body3 (c : Dev nD) (t : Fin cfg3.N) (P Q : sProp 𝕄)
    (hP : P ⊢ ∃ X, owns (c : Thread nD τ) (st3_3 t) fullShare X)
    (hQ : ∀ x1 x2, win3_1.cut (grid3.coords t) x1 = win3_1.cut (grid3.coords t) ((dat3 V c).after 1 t) →
      win3_2.cut (grid3.coords t) x2 = win3_2.cut (grid3.coords t) ((dat3 V c).after 2 t) →
      owns (c : Thread nD τ) (st3_3 t) fullShare (out3_3 ((dat3 V c).after 0 t) x1 x2) ⊢ Q) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)) ∗ P)
    ⊢ wp frame (wpE (defs₀ (F := F)) Variants.none c none) Set.univ (bodyAt3 t) fun _ =>
      iprop((dat3 V c).Φ t.castSucc ∗ (dat3 V c).owesAt () t.castSucc
        ∗ owns (c : Thread nD τ) (st3_0 t) fullShare ((dat3 V c).after 0 t)
        ∗ (∃ d, owns (c : Thread nD τ) (st3_1 t) fullShare
            ((cfg3.win 1).fill (cfg3.grid.coords t) d ((cfg3.win 1).cut (cfg3.grid.coords t) ((dat3 V c).after 1 t))))
        ∗ (∃ d, owns (c : Thread nD τ) (st3_2 t) fullShare
            ((cfg3.win 2).fill (cfg3.grid.coords t) d ((cfg3.win 2).cut (cfg3.grid.coords t) ((dat3 V c).after 2 t))))
        ∗ Q) := by
  iintro ⟨HΦ, Ho, ⟨%d0, H0⟩, ⟨%d1, H1⟩, ⟨%d2, H2⟩, H3⟩
  have e1 := cut_before3 V c t 1 rfl d1
  have e2 := cut_before3 V c t 2 rfl d2
  rw [show (dat3 V c).before 0 t d0 = (dat3 V c).after 0 t from cut_before3 V c t 0 rfl d0]
  iapply (sound_kernel3 c Set.univ (grid3.coords t) _ _ _ _ _ _ _ _ ((dat3 V c).after 0 t)
    ((dat3 V c).before 1 t d1) ((dat3 V c).before 2 t d2) _)
  iframe H0 H1 H2
  isplitl [H3]; · iapply hP $$ H3
  iintro ⟨H0, H1, H2, H3⟩
  iframe HΦ Ho H0
  isplitl [H1]; · iapply (owns_loose _ _ c _ e1) $$ H1
  isplitl [H2]; · iapply (owns_loose _ _ c _ e2) $$ H2
  iapply (hQ _ _ e1 e2) $$ H3

theorem body_obligation3 (hloc : RowLocal3 F) (c : Dev nD) :
    BodyObligationLoose (dat3 (F := F) V c) (defs₀ (F := F)) Variants.none () Set.univ := fun t => by
  rw [bigSep_W3, bigSep_W3]
  exact sound_body3 V c t _ _ (exists_elim fun _ => exists_intro _) fun _ _ h1 h2 =>
    owns_loose win3_3 _ c _ ((cut_out3_3 hloc _ _ h1 h2).trans (congrArg _ (after3_3 V c t).symm))

theorem body_obligation3_fgt (c : Dev nD) :
    BodyObligationLoose (dat3 (F := F) V c) (defs₀ (F := F)) Variants.none () Set.univ (fun w => decide (w = 3)) := fun t => by
  rw [bigSep_W3, bigSep_W3]
  exact sound_body3 V c t _ _ .rfl fun _ _ _ _ => exists_intro _

theorem index3_0 : ∀ t : Fin cfg3.N, win3_0.index t 1 = 0 := by decide +kernel
theorem index3_1 : ∀ t : Fin cfg3.N, win3_1.index t 0 = t.val ∧ win3_1.index t 1 = 0 := by decide +kernel
theorem index3_2 : ∀ t : Fin cfg3.N, win3_2.index t 1 = t.val := by decide +kernel
theorem index3_3 : ∀ t : Fin cfg3.N, win3_3.index t 1 = t.val := by decide +kernel
theorem xsize3_3 : ∀ t : Fin cfg3.N, win3_3.xsize (grid3.coords t) 0 = 1
    ∧ win3_3.xsize (grid3.coords t) 1 = min 2048 (50257 - 2048 * t.val) := by decide +kernel

theorem disj3_3 (t t' : Fin cfg3.N) (h : t ≠ t') :
    Disjoint ((cfg3.win 3).blk t).view.set ((cfg3.win 3).blk t').view.set :=
  win3_3.disjoint_blk fun e => h (Fin.ext ((index3_3 t).symm.trans ((congrFun e 1).trans (index3_3 t'))))

def pt3 (j : Fin 50257) : Fin cfg3.N := ⟨j.val / 2048, by have := N_3; have := j.isLt; show j.val / 2048 < grid3.N; omega⟩

def col3 (j : Fin 50257) : (win3_3.xblock (grid3.coords (pt3 j))).Idx := fun a =>
  match a with
  | ⟨0, _⟩ => ⟨0, show 0 < win3_3.xsize (grid3.coords (pt3 j)) 0 by rw [(xsize3_3 (pt3 j)).1]; exact Nat.one_pos⟩
  | ⟨1, _⟩ => ⟨j.val % 2048, show j.val % 2048 < win3_3.xsize (grid3.coords (pt3 j)) 1 by
      rw [(xsize3_3 (pt3 j)).2]; have := j.isLt; show j.val % 2048 < min 2048 (50257 - 2048 * (j.val / 2048)); omega⟩

-- Column `j` of the result lies in block `j / 2048`, at column `j % 2048` of it.
theorem final3_at (c : Dev nD) (j : Fin 50257) :
    (dat3 V c).arrAt 3 cfg3.N (ValueIdx.ix2 (0 : Fin 1) j)
      = out3_3 (iblk3 V c 0 (pt3 j)) (blk3_1 V c (pt3 j)) (blk3_2 V c (pt3 j)) (win3_3.xinj (grid3.coords (pt3 j)) (col3 j)) := by
  have e : (win3_3.rect (pt3 j)).emb (col3 j) = ValueIdx.ix2 (0 : Fin 1) j := Shape.idx_ext₂
    (Fin.val_eq_zero _)
    (by rw [win3_3.rect_emb_val (pt3 j) (col3 j) 1, index3_3 (pt3 j)]; exact Nat.div_add_mod' j.val 2048)
  rw [← e]
  show (dat3 V c).arrAt 3 cfg3.N (((cfg3.win 3).blk (pt3 j)).view.emb (col3 j)) = _
  rw [(dat3 V c).arrAt_emb_eq_flushed 3 (fun t t' _ _ hne => disj3_3 t t' hne) (pt3 j) (flush3_3 _) (col3 j)]
  show (cfg3.win 3).cut (cfg3.grid.coords (pt3 j)) ((dat3 V c).after 3 (pt3 j)) (col3 j) = _
  rw [after3_3]

section IdealValue

variable (VI : (c : Dev nD) → (b : Ref sig .tc) → Buf (Elt Ideal) ((c : Thread nD τ).loc b))

def row3 (j : Fin 50257) (k : Fin 1024) : (win3_1.xblock (grid3.coords (pt3 j))).Idx := fun a =>
  match a with
  | ⟨0, _⟩ => ⟨j.val % 2048, (col3 j 1).isLt⟩
  | ⟨1, _⟩ => k

abbrev arr3_h (c : Dev nD) : S1x1024.Idx → EReal := VI c main_v9
abbrev arr3_O (c : Dev nD) : S50257x1024.Idx → EReal := VI c main_arg12
abbrev arr3_b (c : Dev nD) : S1x50257.Idx → EReal := VI c main_v6
abbrev res3 (c : Dev nD) : S1x50257.Idx → EReal := (dat3 (F := Ideal) VI c).arrAt 3 cfg3.N

theorem final3_ideal (c : Dev nD) (j : Fin 50257) :
    res3 VI c (ValueIdx.ix2 (0 : Fin 1) j)
      = (∑ k : Fin 1024, arr3_h VI c (ValueIdx.ix2 (0 : Fin 1) k) * arr3_O VI c (ValueIdx.ix2 j k))
        + arr3_b VI c (ValueIdx.ix2 (0 : Fin 1) j) := by
  unfold res3
  rw [final3_at]
  unfold out3_3 k3_pay1
  simp only [shapeCast_self]
  rw [ValueIdx.addf_apply]
  simp only [matmul]
  rw [Ideal.matmul_constant_zero_apply,
    ← Equiv.sum_comp (ValueIdx.contrEquiv1 dot_S1x1024_S2048x1024_S1x2048_1_1_0_0_n_n 1024 rfl rfl).symm]
  congr 1
  · refine Finset.sum_congr rfl fun k _ => ?_
    have ck := ValueIdx.contrEquiv1_symm_val dot_S1x1024_S2048x1024_S1x2048_1_1_0_0_n_n 1024 rfl rfl k
    have r2 : dot_S1x1024_S2048x1024_S1x2048_1_1_0_0_n_n.rhsIdx (win3_3.xinj (grid3.coords (pt3 j)) (col3 j))
        ((ValueIdx.contrEquiv1 dot_S1x1024_S2048x1024_S1x2048_1_1_0_0_n_n 1024 rfl rfl).symm k)
          = win3_1.xinj (grid3.coords (pt3 j)) (row3 j k) := Shape.idx_ext₂ rfl ck
    rw [ValueIdx.truncf_apply, ValueIdx.truncf_apply, r2]
    unfold blk3_1
    rw [Window.fill_xinj]
    exact congrArg₂ (fun x y => arr3_h VI c x * arr3_O VI c y)
      (Shape.idx_ext₂ (Fin.val_eq_zero _) ((win3_0.rect_emb_val_of_index_zero (pt3 j) 1 (index3_0 _) _).trans ck))
      (Shape.idx_ext₂ ((win3_1.rect_emb_val (pt3 j) (row3 j k) 0).trans (by rw [(index3_1 _).1]; exact Nat.div_add_mod' j.val 2048))
        (win3_1.rect_emb_val_of_index_zero (pt3 j) 1 (index3_1 _).2 (row3 j k)))
  · unfold blk3_2
    exact (win3_2.fill_xinj _ _ _ (col3 j)).trans (congrArg (arr3_b VI c) (Shape.idx_ext₂ (Fin.val_eq_zero _)
      ((win3_2.rect_emb_val (pt3 j) (col3 j) 1).trans (by rw [index3_2]; exact Nat.div_add_mod' j.val 2048))))

end IdealValue

end Cert.Kernel.R3

end
-- ==== Proof.K.R0Arr.lean ====
/- Region 0's window arrays against the distinct buffers behind them: windows that read one array hold it by halves of
   its share, dealt at the entry and joined at the exit. -/
import proofs.«411147_j8194797600876_3_alg».proof.Proof.Gen.Kernel.Launch
import Idealize.ShloMosaic.Lib.Pipeline.Frame
import Idealize.ShloMosaic.Lib.Pipeline.RegionsLoop
import Idealize.ShloMosaic.Lib.Tactic

set_option maxRecDepth 16384

noncomputable section

namespace Cert.Kernel.R0Arr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (Pipeline.UD sig nD τ) ℕ

def q0 (w : Fin 8) : PosShare TreeShare := if w = 1 then fullShare.left else if w = 2 then fullShare.right else fullShare

theorem arrBufs0_eq (c : Dev nD) (V : (b : Ref sig .tc) → Buf (Elt F) ((c : Thread nD τ).loc b)) :
    (Pipeline.arrBufs spec0 c V : sProp 𝕄)
      = iprop((((c : Thread nD τ).loc main_v0) ↦{fullShare} V main_v0) ∗ (((c : Thread nD τ).loc main_arg4) ↦{fullShare} V main_arg4)
          ∗ (((c : Thread nD τ).loc main_v2) ↦{fullShare} V main_v2) ∗ (((c : Thread nD τ).loc main_arg2) ↦{fullShare} V main_arg2)
          ∗ (((c : Thread nD τ).loc main_v7_0) ↦{fullShare} V main_v7_0) ∗ (((c : Thread nD τ).loc main_v7_1) ↦{fullShare} V main_v7_1)
          ∗ (((c : Thread nD τ).loc main_v7_2) ↦{fullShare} V main_v7_2)) := by
  unfold Pipeline.arrBufs
  rw [BI.bigSep_eq_bigSepL_of_eq [main_v0, main_arg4, main_v2, main_arg2, main_v7_0, main_v7_1, main_v7_2] (by decide) (by decide)]; rfl

section

variable (a : (pcfg0 (F := F)).Adm) (c : Dev nD) (dat : Dat τ (Elt F) Unit ℕ (Pipeline.UD sig nD τ) ℕ (cfg0 a) c)

theorem arr_pt (w : Fin 8) (q : PosShare TreeShare) (hs : dat.share w = q) (G : Buf (Elt F) (((cfg0 a).win w).arr.view.loc (c : Thread nD τ))) :
    ((((cfg0 a).win w).arr.view.loc (c : Thread nD τ)) ↦[((cfg0 a).win w).arr.view.set]{dat.share w} G : sProp 𝕄)
      = (((c : Thread nD τ).loc (Pipeline.arrRef spec0 w)) ↦{q} G) := by
  rw [hs, show ((cfg0 a).win w).arr.view.set = Finset.univ from (arr_whole0 w).set_eq_univ]

theorem share0 (hq : dat.q = q0) :
    dat.share 0 = fullShare ∧ dat.share 1 = fullShare.left ∧ dat.share 2 = fullShare.right ∧ dat.share 3 = fullShare
      ∧ dat.share 4 = fullShare ∧ dat.share 5 = fullShare ∧ dat.share 6 = fullShare ∧ dat.share 7 = fullShare := by
  have hin : ∀ w : Fin 8, ((cfg0 a).win w).isOut = false → dat.share w = q0 w := fun w hw => by
    unfold Dat.share; rw [hw, if_neg Bool.false_ne_true]; exact congrFun hq w
  have hout : ∀ w : Fin 8, ((cfg0 a).win w).isOut = true → dat.share w = fullShare := fun w hw => by
    unfold Dat.share; rw [hw, if_pos rfl]
  exact ⟨(hin 0 rfl).trans (by decide), (hin 1 rfl).trans (by decide), (hin 2 rfl).trans (by decide), (hin 3 rfl).trans (by decide),
    (hin 4 rfl).trans (by decide), hout 5 rfl, hout 6 rfl, hout 7 rfl⟩

theorem arrays0_eq (hq : dat.q = q0) (G : (w : Fin 8) → Buf (Elt F) (((cfg0 a).win w).arr.view.loc (c : Thread nD τ))) :
    (dat.arrays G : sProp 𝕄)
      = iprop((((c : Thread nD τ).loc main_v0) ↦{fullShare} G 0) ∗ (((c : Thread nD τ).loc main_arg4) ↦{fullShare.left} G 1)
          ∗ (((c : Thread nD τ).loc main_arg4) ↦{fullShare.right} G 2) ∗ (((c : Thread nD τ).loc main_v2) ↦{fullShare} G 3)
          ∗ (((c : Thread nD τ).loc main_arg2) ↦{fullShare} G 4) ∗ (((c : Thread nD τ).loc main_v7_0) ↦{fullShare} G 5)
          ∗ (((c : Thread nD τ).loc main_v7_1) ↦{fullShare} G 6) ∗ (((c : Thread nD τ).loc main_v7_2) ↦{fullShare} G 7)) := by
  obtain ⟨h0, h1, h2, h3, h4, h5, h6, h7⟩ := share0 a c dat hq
  unfold Dat.arrays
  exact (bigSep_W0 _).trans
    (congrArg₂ BI.sep (arr_pt a c dat 0 _ h0 (G 0)) (congrArg₂ BI.sep (arr_pt a c dat 1 _ h1 (G 1))
      (congrArg₂ BI.sep (arr_pt a c dat 2 _ h2 (G 2)) (congrArg₂ BI.sep (arr_pt a c dat 3 _ h3 (G 3))
        (congrArg₂ BI.sep (arr_pt a c dat 4 _ h4 (G 4)) (congrArg₂ BI.sep (arr_pt a c dat 5 _ h5 (G 5))
          (congrArg₂ BI.sep (arr_pt a c dat 6 _ h6 (G 6)) (arr_pt a c dat 7 _ h7 (G 7)))))))))

theorem entry_arrays0 (V : (b : Ref sig .tc) → Buf (Elt F) ((c : Thread nD τ).loc b)) (hq : dat.q = q0)
    (hA : ∀ w, dat.A w = V (Pipeline.arrRef spec0 w)) :
    (Pipeline.arrBufs spec0 c V : sProp 𝕄) ⊢ dat.arrays dat.A := by
  rw [arrBufs0_eq, arrays0_eq a c dat hq, hA 0, hA 1, hA 2, hA 3, hA 4, hA 5, hA 6, hA 7]
  iintro ⟨H0, H4, H2, Ha, H5, H6, H7⟩
  ihave Hs := (pointsTo_share (PosShare.mem_left_op_right fullShare)).1 $$ H4
  icases Hs with ⟨Hl, Hr⟩
  isplitl [H0]; · iexact H0
  isplitl [Hl]; · iexact Hl
  isplitl [Hr]; · iexact Hr
  isplitl [H2]; · iexact H2
  isplitl [Ha]; · iexact Ha
  isplitl [H5]; · iexact H5
  isplitl [H6]; · iexact H6
  iexact H7

theorem exit_arrays0 (V' : (b : Ref sig .tc) → Buf (Elt F) ((c : Thread nD τ).loc b)) (hq : dat.q = q0)
    (F' : (w : Fin 8) → Buf (Elt F) (((cfg0 a).win w).arr.view.loc (c : Thread nD τ)))
    (hF : ∀ w, F' w = V' (Pipeline.arrRef spec0 w)) :
    dat.arrays F' ⊢ (Pipeline.arrBufs spec0 c V' : sProp 𝕄) := by
  rw [arrBufs0_eq, arrays0_eq a c dat hq, hF 0, hF 1, hF 2, hF 3, hF 4, hF 5, hF 6, hF 7]
  iintro ⟨H0, Hl, Hr, H2, Ha, H5, H6, H7⟩
  isplitl [H0]; · iexact H0
  isplitl [Hl Hr]
  · iapply (pointsTo_share (PosShare.mem_left_op_right fullShare)).2
    isplitl [Hl]; · iexact Hl
    iexact Hr
  isplitl [H2]; · iexact H2
  isplitl [Ha]; · iexact Ha
  isplitl [H5]; · iexact H5
  isplitl [H6]; · iexact H6
  iexact H7

end

end Cert.Kernel.R0Arr

end
-- ==== Proof.K.R0.lean ====
import proofs.«411147_j8194797600876_3_alg».proof.Proof.Gen.Kernel.Launch
import proofs.«411147_j8194797600876_3_alg».proof.Proof.Gen.Kernel.Skeleton
import proofs.«411147_j8194797600876_3_alg».proof.Proof.Gen.Kernel.Points
import proofs.«411147_j8194797600876_3_alg».proof.Proof.K.R0Arr
import Idealize.ShloMosaic.Lib.Pipeline.FrameBody
import Idealize.ShloMosaic.Lib.Pipeline.Value
import Idealize.ShloMosaic.Lib.Ring
import Idealize.ShloMosaic.Lib.ValueIdx
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix2)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a : (pcfg0 (F := F)).Adm)

def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

abbrev tbM0 : Memref sig .tc .smem S1 .i32 := Memref.whole main_v1

def tok0 : BitVec 32 :=
  tbM0.view.readAt (Elt F) (Rect.unit (s := S1) ![0] S1.size inb_S1_S1_0).toLoadRect (a.1 0)
    (Shape.Idx.first (numel1_S1.symm ▸ Nat.one_pos))

theorem chk_iff (v0 : BitVec 32) : k0_chk1 v0 ↔ v0.toNat < 50257 := by
  simp [k0_chk1, k0_off1, Fin.forall_fin_two] <;> omega

def embRow (c : Dev nD) : Vec F S1x1024 .f32 :=
  fun y => V c main_arg3 (ix2 (⟨min (tok0 a).toNat 50256, by omega⟩ : Fin 50257) (⟨(y 1).val, (y 1).isLt⟩ : Fin 1024))

theorem embRow_apply (hchk : k0_chk1 (tok0 a)) (c : Dev nD) (y : S1x1024.Idx) :
    embRow V a c y = V c main_arg3 (ix2 (⟨(tok0 a).toNat, (chk_iff _).mp hchk⟩ : Fin 50257) (⟨(y 1).val, (y 1).isLt⟩ : Fin 1024)) := by
  have h := (chk_iff _).mp hchk
  unfold embRow
  congr 2
  apply Fin.ext
  show min (tok0 a).toNat 50256 = (tok0 a).toNat
  omega

abbrev scM0 : Memref sig .tc .vmem S1x1024 .f32 := Memref.whole cc0_scratch0
abbrev hbM0 : Memref sig .tc .hbm S50257x1024 .f32 := Memref.whole main_arg3

-- The row the token names is the slice of the matrix at the offsets computed from the token.
theorem embRow_eq_read (hchk : k0_chk1 (tok0 a)) (c : Dev nD) :
    embRow V a c = (hbM0.slice (Rect.unit (s := S50257x1024) (k0_off1 (tok0 a)) S1x1024.size (k0_off1_inb _ hchk)) (fun _ => rfl)).view.read (Elt F) (V c main_arg3) := by
  funext y
  rw [embRow_apply V a hchk, View.read_apply]
  show V c main_arg3 _ = V c main_arg3 _
  refine congrArg (V c main_arg3) (Shape.idx_ext₂ ?_ ?_)
  · show (tok0 a).toNat = (tok0 a).toNat + 1 * (y 0).val
    have : (y 0).val < 1 := (y 0).isLt
    omega
  · show (y 1).val = 0 + 1 * (y 1).val
    omega

abbrev osem0 : Fin 1 → SemLoc sig := fun j => (![SemLoc.dma 8] : Fin 1 → SemLoc sig) j
theorem ownSemFacts0 : Pipeline.OwnSemFacts spec0 osem0 := by decide

def H0 : Finset (Ref sig .tc) := {main_arg3}

def Φ0 (c : Dev nD) : sProp 𝕄 :=
  iprop(Pipeline.ΦD osem0 spec0 H0 V c ∗ Pipeline.prefHeld pre0 c (fun _ => fullShare) a.1)

theorem Φ0_eq (c : Dev nD) :
    (Φ0 V a c : sProp 𝕄)
      = iprop(iprop(Pipeline.scopedRest (Ix := Unit) (Name := ℕ) (U := Pipeline.UD sig nD τ) (Lvl := ℕ) (Val := Elt F) spec0 c ∗ (∃ r, prngReg c r)
          ∗ Pipeline.ownSems0 (Ix := Unit) (Name := ℕ) (U := Pipeline.UD sig nD τ) (Lvl := ℕ) (Val := Elt F) (τ := τ) osem0 c
          ∗ bigSep H0 fun b => ((c : Thread nD τ).loc b) ↦{fullShare} V c b)
        ∗ Pipeline.prefHeld pre0 c (fun _ => fullShare) a.1) := rfl

-- The invariant with the scratch row, the own semaphore, the matrix and the table taken out.
theorem Φ0_open (c : Dev nD) :
    (Φ0 V a c : sProp 𝕄)
      = iprop(iprop(iprop((∃ d, owns c.tc scM0 fullShare d)
            ∗ Pipeline.scopedRestBut (Ix := Unit) (Name := ℕ) (U := Pipeline.UD sig nD τ) (Lvl := ℕ) (Val := Elt F) spec0 c [cc0_scratch0])
          ∗ (∃ r, prngReg c r) ∗ iprop(semVal (c.tc, SemLoc.dma 8) 0) ∗ iprop(hbM0.view.loc c.tc ↦{fullShare} V c main_arg3))
        ∗ iprop(tbM0.view.loc c.tc ↦{fullShare} a.1 0)) := by
  unfold Φ0 Pipeline.prefHeld
  rw [Pipeline.ΦD_eq, Pipeline.scopedRest_split_of_list spec0 c [cc0_scratch0] (by decide) (by decide),
    Pipeline.ownSems0_eq_of_list c osem0 [0] (by decide) (by decide), BI.bigSep_eq_bigSepL_of_eq (S := H0) [main_arg3] (by decide) (by decide),
    show (Finset.univ : Finset (Fin 1)) = {0} from by decide, bigSep_singleton]
  simp only [scM0, owns_whole]; try rfl

theorem hz2 : (![0, 0] : Fin 2 → Nat) = fun _ => 0 := funext fun a => by fin_cases a <;> rfl

-- A load of a whole buffer reads its contents,
theorem readAt_whole {n : Fin 2 → ℕ} {e : EltTy} {sp : Space} (M : Memref sig .tc sp ⟨2, n⟩ e) (inb : ∀ a, (![0, 0] : Fin 2 → ℕ) a + n a ≤ n a)
    (f : M.view.ty.Contents (Elt F)) : M.view.readAt (Elt F) (Rect.unit ![0, 0] n inb).toLoadRect f = M.view.read (Elt F) f :=
  View.ld_unit_zero hz2 inb _

-- and after a store of a whole buffer the buffer reads what was stored.
theorem read_write_whole {n : Fin 2 → ℕ} {e : EltTy} {sp : Space} {M : Memref sig .tc sp ⟨2, n⟩ e}
    {inb : ∀ a, (![0, 0] : Fin 2 → ℕ) a + n a ≤ n a} {f : M.view.ty.Contents (Elt F)} {w : Shape.Idx ⟨2, n⟩ → Elt F e} :
    M.view.read (Elt F) (M.view.writes (Elt F) f [⟨Rect.unit ![0, 0] n inb, w⟩]) = w :=
  (View.read_writes_eq_canon _ _ _ fun y => ⟨_, List.mem_singleton_self _, View.mem_set_unit_zero hz2 inb y⟩).trans (View.canon_unit_zero hz2 inb w)

-- The body on whole staging buffers: the inputs come back as they were, the outputs hold the row the token names, the weights and the context.
theorem sound_kernel0 (hchk : k0_chk1 (tok0 a)) (c : Dev nD) {i : grid0.Coords}
    {arg3 arg8 arg10 : Memref sig .tc .vmem S1x1024 .f32} {arg4 arg5 arg7 : Memref sig .tc .vmem S2048x1024 .f32}
    {arg6 arg9 : Memref sig .tc .vmem S1x2048 .f32} {h3 : arg3.IsWhole} {h4 : arg4.IsWhole} {h5 : arg5.IsWhole} {h6 : arg6.IsWhole}
    {h7 : arg7.IsWhole} {h8 : arg8.IsWhole} {h9 : arg9.IsWhole} {h10 : arg10.IsWhole}
    {x0 : Vec F S1x1024 .f32} {x1 x2 x4 : Vec F S2048x1024 .f32} {x3 : Vec F S1x2048 .f32}
    {δ0 δ1 δ2 δ3 δ4 δ5 δ6 δ7 : Type} {b5 : δ5 → Vec F S1x1024 .f32} {b6 : δ6 → Vec F S1x2048 .f32} {b7 : δ7 → Vec F S1x1024 .f32}
    {B B' : Set (SemLoc sig × Unit)} (hB' : ∀ p, p ∈ B') :
    iprop(Φ0 V a c ∗ Pipeline.owesWithin c 0 B
        ∗ (∃ _ : δ0, owns c.tc arg3 fullShare x0) ∗ (∃ _ : δ1, owns c.tc arg4 fullShare x1)
        ∗ (∃ _ : δ2, owns c.tc arg5 fullShare x2) ∗ (∃ _ : δ3, owns c.tc arg6 fullShare x3)
        ∗ (∃ _ : δ4, owns c.tc arg7 fullShare x4) ∗ (∃ d, owns c.tc arg8 fullShare (b5 d))
        ∗ (∃ d, owns c.tc arg9 fullShare (b6 d)) ∗ (∃ d, owns c.tc arg10 fullShare (b7 d)))
      ⊢ wp frame (wpE (defs₀ (F := F)) Variants.none c none) Set.univ
          (cc0__attn_kernel i tbM0 (Memref.isWhole_whole _) hbM0 (Memref.isWhole_whole _) arg3 h3 arg4 h4 arg5 h5 arg6 h6 arg7 h7 arg8 h8 arg9 h9
            arg10 h10 scM0 (Memref.isWhole_whole _) cc0_scratch1)
          fun _ => iprop(Φ0 V a c ∗ Pipeline.owesWithin c 0 B'
            ∗ owns c.tc arg3 fullShare x0 ∗ owns c.tc arg4 fullShare x1 ∗ owns c.tc arg5 fullShare x2
            ∗ owns c.tc arg6 fullShare x3 ∗ owns c.tc arg7 fullShare x4
            ∗ owns c.tc arg8 fullShare (embRow V a c)
            ∗ owns c.tc arg9 fullShare (k0_pay1 (embRow V a c) x0 x1 x2 x3)
            ∗ owns c.tc arg10 fullShare (k0_pay2 (embRow V a c) x0 x1 x2 x3 x4)) := by
  have hw := hchk
  unfold tok0 at hw
  simp only [cc0__attn_kernel_eq_skeleton]; unfold cc0__attn_kernel_skel
  simp only [k0_part1_eq_skeleton]
  rw [Φ0_open]
  unfold owns Pipeline.owesWithin
  iintro ⟨⟨⟨⟨⟨%ds, %fs, -, HS⟩, HR⟩, Hg, Hq, Hh⟩, HT⟩, ⟨%W, -, HW⟩, ⟨%_, %f0, %e0, H0⟩, ⟨%_, %f1, %e1, H1⟩, ⟨%_, %f2, %e2, H2⟩, ⟨%_, %f3, %e3, H3⟩, ⟨%_, %f4, %e4, H4⟩, ⟨%d5, %f5, -, H5⟩, ⟨%d6, %f6, -, H6⟩, ⟨%d7, %f7, -, H7⟩⟩
  subst e0 e1 e2 e3 e4
  sl_exec (disch := first | sl_exact hw)
  sl_step
  have hv3 : sound_kernel0.sl.v3 V a hchk c = embRow V a c := by
    sl_unfold_run_names
    exact ((View.readCov_eq_canon_ld _ _ _ fun y => ⟨_, List.mem_singleton_self _, View.mem_set_unit_zero rfl (fun _ => (Nat.zero_add _).le) y⟩).trans
      ((View.ld_unit_zero hz2 _ _).trans (View.canon_unit_zero rfl _ _))).trans (embRow_eq_read V a hchk c).symm
  iframe HR Hg Hh HT
  isplitl [HS Hq]
  · isplitr [Hq]; swap; · iexact Hq
    iexists _, _; isplitr; swap; · iexact HS
    ipureintro; rfl
  isplitl [HW]
  · iexists _; isplitr; swap; · iexact HW
    ipureintro; exact fun p _ => hB' p
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists _; isplitr; swap; · iexact H5
                  ipureintro; exact read_write_whole.trans hv3
  isplitl [H6]; · iexists _; isplitr; swap; · iexact H6
                  ipureintro
                  exact read_write_whole.trans (by unfold sound_kernel0.sl.r_1; simp only [hv3, readAt_whole])
  iexists _; isplitr; swap; · iexact H7
  ipureintro
  exact read_write_whole.trans (by unfold sound_kernel0.sl.r_2; simp only [hv3, readAt_whole])

def dat0 (hchk : k0_chk1 (tok0 a)) (c : Dev nD) : Dat τ (Elt F) Unit ℕ (Pipeline.UD sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => embRow V a c
    | ⟨6, _⟩ => k0_pay1 (embRow V a c) (iblk0 V a c 0 t) (iblk0 V a c 1 t) (iblk0 V a c 2 t) (iblk0 V a c 3 t)
    | ⟨7, _⟩ => k0_pay2 (embRow V a c) (iblk0 V a c 0 t) (iblk0 V a c 1 t) (iblk0 V a c 2 t) (iblk0 V a c 3 t) (iblk0 V a c 4 t)
  Φ _ := Φ0 V a c
  q := R0Arr.q0
  owed _ := 0

theorem A_eq0 (hchk : k0_chk1 (tok0 a)) (c : Dev nD) (w : Fin (cfg0 a).W) : (dat0 V a hchk c).A w = V c (Pipeline.arrRef spec0 w) := by
  dsimp only [dat0]
theorem Φ_eq0 (hchk : k0_chk1 (tok0 a)) (c : Dev nD) (t) : (dat0 V a hchk c).Φ t = Φ0 V a c := rfl
theorem owed_eq0 (hchk : k0_chk1 (tok0 a)) (c : Dev nD) (t) : (dat0 V a hchk c).owed t = 0 := rfl
theorem q_eq0 (hchk : k0_chk1 (tok0 a)) (c : Dev nD) : (dat0 V a hchk c).q = R0Arr.q0 := rfl

-- An input window's staging buffer holds its block at every point, fetched there or not.
theorem before0 (hchk : k0_chk1 (tok0 a)) (c : Dev nD) : ∀ w : Fin 8, w.val < 5 → ∀ t d, (dat0 V a hchk c).before w t d = iblk0 V a c w t
  | ⟨0, _⟩, _ | ⟨1, _⟩, _ | ⟨2, _⟩, _ | ⟨3, _⟩, _ | ⟨4, _⟩, _ => fun t d =>
    ((dat0 V a hchk c).before_in_eq_fetched _ rfl (fun _ => rfl) (fun _ _ _ => rfl) (fun t => by dsimp only [dat0] <;> rfl) t d).trans (by
      unfold Dat.fetched Pipeline.Window.fill
      funext j
      rw [dif_pos ((((cfg0 a).win _).moved_iff _ j).mpr fun a' => (j a').isLt)] <;> rfl)
  | ⟨_ + 5, _⟩, h => absurd h (Nat.not_lt.2 (Nat.le_add_left _ _))

theorem body_obligation0 (hchk : k0_chk1 (tok0 a)) (c : Dev nD) :
    BodyObligation (dat0 (F := F) V a hchk c) (defs₀ (F := F)) Variants.none () Set.univ := fun t => by
  rw [bigSep_W0, bigSep_W0]
  simp (disch := decide) only [before0 V a hchk c]
  dsimp only [dat0]
  exact sound_kernel0 V a hchk c fun _ => Or.inl trivial

def t0 : Fin (cfg0 a).N := ⟨0, by show 0 < grid0.N; rw [N_0]; decide⟩

-- After the one point, an output's array holds under the point's block what the body left there.
theorem arrAt0 (hchk : k0_chk1 (tok0 a)) (c : Dev nD) (w : Fin (cfg0 a).W) (hw : ((cfg0 a).win w).isOut = true)
    (y : (((cfg0 a).win w).xblock ((cfg0 a).grid.coords (t0 a))).Idx) :
    HEq ((dat0 V a hchk c).arrAt w (cfg0 a).N ((((cfg0 a).win w).blk (t0 a)).view.emb y)) ((dat0 V a hchk c).flushed w (t0 a) y) :=
  heq_of_eq_of_heq ((dat0 V a hchk c).arrAt_emb_eq_flushed w (fun t t' _ _ hne => absurd ((fin_N0 t).trans (fin_N0 t').symm) hne) (t0 a)
    ((((cfg0 a).win w).flush_out hw _).mpr (.inl N_0.symm)) y) (cast_heq _ _)

theorem final0_5 (hchk : k0_chk1 (tok0 a)) (c : Dev nD) : (dat0 V a hchk c).arrAt 5 (cfg0 a).N = embRow V a c := by
  funext y
  have h := eq_of_heq (arrAt0 V a hchk c 5 rfl y)
  rwa [show (((cfg0 a).win 5).blk (t0 a)).view.emb y = y from Shape.idx_ext₂
    (((cfg0 a).win 5).rect_emb_val_of_index_zero (t0 a) (0 : Fin 2) rfl y) (((cfg0 a).win 5).rect_emb_val_of_index_zero (t0 a) (1 : Fin 2) rfl y)] at h

theorem final0_6 (hchk : k0_chk1 (tok0 a)) (c : Dev nD) :
    (dat0 V a hchk c).arrAt 6 (cfg0 a).N
      = k0_pay1 (embRow V a c) (iblk0 V a c 0 (t0 a)) (iblk0 V a c 1 (t0 a)) (iblk0 V a c 2 (t0 a)) (iblk0 V a c 3 (t0 a)) := by
  funext y
  have h := eq_of_heq (arrAt0 V a hchk c 6 rfl y)
  rwa [show (((cfg0 a).win 6).blk (t0 a)).view.emb y = y from Shape.idx_ext₂
    (((cfg0 a).win 6).rect_emb_val_of_index_zero (t0 a) (0 : Fin 2) rfl y) (((cfg0 a).win 6).rect_emb_val_of_index_zero (t0 a) (1 : Fin 2) rfl y)] at h

theorem final0_7 (hchk : k0_chk1 (tok0 a)) (c : Dev nD) :
    (dat0 V a hchk c).arrAt 7 (cfg0 a).N
      = k0_pay2 (embRow V a c) (iblk0 V a c 0 (t0 a)) (iblk0 V a c 1 (t0 a)) (iblk0 V a c 2 (t0 a)) (iblk0 V a c 3 (t0 a)) (iblk0 V a c 4 (t0 a)) := by
  funext y
  have h := eq_of_heq (arrAt0 V a hchk c 7 rfl y)
  rwa [show (((cfg0 a).win 7).blk (t0 a)).view.emb y = y from Shape.idx_ext₂
    (((cfg0 a).win 7).rect_emb_val_of_index_zero (t0 a) (0 : Fin 2) rfl y) (((cfg0 a).win 7).rect_emb_val_of_index_zero (t0 a) (1 : Fin 2) rfl y)] at h

theorem iblk0_1_apply (c : Dev nD) (t : Fin (cfg0 a).N) (y : S2048x1024.Idx) :
    iblk0 V a c 1 t y = V c main_arg4 (ix2 (⟨(y 0).val, (y 0).isLt⟩ : Fin 2048) (⟨(y 1).val, Nat.lt_of_lt_of_le (y 1).isLt (by decide)⟩ : Fin 2048)) := by
  exact (View.read_apply _ _).trans (congrArg (V c main_arg4) (Shape.idx_ext₂
    (((cfg0 a).win 1).rect_emb_val_of_index_zero t (0 : Fin 2) rfl y) (((cfg0 a).win 1).rect_emb_val_of_index_zero t (1 : Fin 2) rfl y)))

theorem iblk0_2_apply (c : Dev nD) (t : Fin (cfg0 a).N) (y : S2048x1024.Idx) :
    iblk0 V a c 2 t y = V c main_arg4 (ix2 (⟨(y 0).val, (y 0).isLt⟩ : Fin 2048) (⟨1024 + (y 1).val, by have h : (y 1).val < 1024 := (y 1).isLt; omega⟩ : Fin 2048)) := by
  refine (View.read_apply _ _).trans (congrArg (V c main_arg4) (Shape.idx_ext₂ ?_ ?_))
  · exact ((cfg0 a).win 2).rect_emb_val_of_index_zero t (0 : Fin 2) rfl y
  · refine (((cfg0 a).win 2).rect_emb_val t y (1 : Fin 2)).trans ?_
    show 1 * 1024 + (y 1).val = 1024 + (y 1).val
    omega

theorem iblk0_0_eq (c : Dev nD) (t : Fin (cfg0 a).N) : iblk0 V a c 0 t = fun y : S1x1024.Idx => V c main_v0 y :=
  funext fun y => (View.read_apply _ _).trans (congrArg (V c main_v0) (Shape.idx_ext₂
    (((cfg0 a).win 0).rect_emb_val_of_index_zero t (0 : Fin 2) rfl y) (((cfg0 a).win 0).rect_emb_val_of_index_zero t (1 : Fin 2) rfl y)))
theorem iblk0_3_eq (c : Dev nD) (t : Fin (cfg0 a).N) : iblk0 V a c 3 t = fun y : S1x2048.Idx => V c main_v2 y :=
  funext fun y => (View.read_apply _ _).trans (congrArg (V c main_v2) (Shape.idx_ext₂
    (((cfg0 a).win 3).rect_emb_val_of_index_zero t (0 : Fin 2) rfl y) (((cfg0 a).win 3).rect_emb_val_of_index_zero t (1 : Fin 2) rfl y)))
theorem iblk0_4_eq (c : Dev nD) (t : Fin (cfg0 a).N) : iblk0 V a c 4 t = fun y : S2048x1024.Idx => V c main_arg2 y :=
  funext fun y => (View.read_apply _ _).trans (congrArg (V c main_arg2) (Shape.idx_ext₂
    (((cfg0 a).win 4).rect_emb_val_of_index_zero t (0 : Fin 2) rfl y) (((cfg0 a).win 4).rect_emb_val_of_index_zero t (1 : Fin 2) rfl y)))
end Cert.Kernel.R0
end
-- ==== Proof.K.Tail.lean ====
/- The two closing host stretches as segments of the run: the row log-softmax of the last region's result, then a reshape. -/
import proofs.«411147_j8194797600876_3_alg».proof.Proof.K.Fold
import proofs.«411147_j8194797600876_3_alg».proof.Proof.Gen.Kernel.Regions
import Idealize.ShloMosaic.Lib.Pipeline.Regions

set_option maxRecDepth 16384

noncomputable section

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]

local notation "𝕄" => MT nD τ sig Unit (Elt F) ℕ (Pipeline.UD sig nD τ) ℕ

variable (m : (ℓ : Loc nD τ sig) → Buf (Elt F) ℓ)
variable (a0 : (pcfg0 (F := F)).Adm) (d0 : (c : Dev nD) → Dat τ (Elt F) Unit ℕ (Pipeline.UD sig nD τ) ℕ (cfg0 a0) c)

variable (P : (c : Dev nD) → Buf (Elt F) ((c : Thread nD τ).loc main_v10) → Prop)

set_option backward.isDefEq.respectTransparency.types false in
def seg7x : Pipeline.HostSeg (Name := ℕ) (U := Pipeline.UD sig nD τ) (pcfgs (F := F)) defs₀ 𝒱₀ L lv where
  prog := StableHlo.seq hostOps4
  pre c := iprop(∃ x, ⌜P c x⌝ ∗ StableHlo.held (c : Thread nD τ) (Pipeline.ucRefs τ sig) (U7 m a0 d0 c x) ∗ E c)
  post c := iprop(∃ x, ⌜P c x⌝ ∗ StableHlo.held (c : Thread nD τ) (Pipeline.ucRefs τ sig) (U8 m a0 d0 c x) ∗ E c)
  run c {β} k K := by
    iintro ⟨Hk, Hbd, ⟨%x, %hx, Hh, HE⟩, -⟩
    have hseq := StableHlo.wp_seq (defs := Pipeline.defs (pcfgs (F := F)) defs₀) (Variants.lift 𝒱₀) none Set.univ c
      (Pipeline.ucRefs τ sig) k (K := K) hostOps4
      (fun op h => Pipeline.sub_ucRefs op ((List.forall_iff_forall_mem.mp hostOps4_sub) op h))
      (fun op h => (List.forall_iff_forall_mem.mp hostOps4_fresh) op h) (U7 m a0 d0 c x)
    iapply hseq $$ [Hbd Hh]
    · isplitl [Hbd] <;> iassumption
    iintro ⟨Hbd, Hh⟩
    iapply Hk
    isplitl [Hbd]; · iexact Hbd
    iexists x
    isplitr; · ipureintro; exact hx
    isplitl [Hh]; · iexact Hh
    iexact HE

set_option backward.isDefEq.respectTransparency.types false in
def seg8x : Pipeline.HostSeg (Name := ℕ) (U := Pipeline.UD sig nD τ) (pcfgs (F := F)) defs₀ 𝒱₀ L lv where
  prog := StableHlo.seq hostOps4_1
  pre c := iprop(∃ x, ⌜P c x⌝ ∗ StableHlo.held (c : Thread nD τ) (Pipeline.ucRefs τ sig) (U8 m a0 d0 c x) ∗ E c)
  post c := iprop(∃ x, ⌜P c x⌝ ∗ StableHlo.held (c : Thread nD τ) (Pipeline.ucRefs τ sig) (U9 m a0 d0 c x) ∗ E c)
  run c {β} k K := by
    iintro ⟨Hk, Hbd, ⟨%x, %hx, Hh, HE⟩, -⟩
    have hseq := StableHlo.wp_seq (defs := Pipeline.defs (pcfgs (F := F)) defs₀) (Variants.lift 𝒱₀) none Set.univ c
      (Pipeline.ucRefs τ sig) k (K := K) hostOps4_1
      (fun op h => Pipeline.sub_ucRefs op ((List.forall_iff_forall_mem.mp hostOps4_1_sub) op h))
      (fun op h => (List.forall_iff_forall_mem.mp hostOps4_1_fresh) op h) (U8 m a0 d0 c x)
    iapply hseq $$ [Hbd Hh]
    · isplitl [Hbd] <;> iassumption
    iintro ⟨Hbd, Hh⟩
    iapply Hk
    isplitl [Hbd]; · iexact Hbd
    iexists x
    isplitr; · ipureintro; exact hx
    isplitl [Hh]; · iexact Hh
    iexact HE

abbrev T0 (c : Dev nD) : sProp 𝕄 := iprop(StableHlo.held (c : Thread nD τ) (Pipeline.ucRefs τ sig) (V0 m c) ∗ E c)
abbrev TN (c : Dev nD) : sProp 𝕄 :=
  iprop(∃ x, ⌜P c x⌝ ∗ StableHlo.held (c : Thread nD τ) (Pipeline.ucRefs τ sig) (U9 m a0 d0 c x) ∗ ∃ r, prngReg c r)

theorem hinitT (ρ : Dev nD → PrngReg) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅
          ∗ Pipeline.launchCred (0 : Dev nD → CellTallies nD τ sig Unit) c ∗ prngReg c (ρ c) ∗ (BI.emp : sProp 𝕄))) ∗ levAts L lv)
      ⊢ (|={Set.univ}=> bigSep Finset.univ (T0 m) : sProp 𝕄) := by
  refine Pipeline.initEach L lv fun c => ?_
  rw [show unscopedBufs c (fun b => m ((c : Thread nD τ).loc b)) = StableHlo.held (c : Thread nD τ) (Pipeline.ucRefs τ sig) (V0 m c)
    from Pipeline.unscopedBufs_held c (V0 m c)]
  iintro ⟨⟨Hh, -, HO, -, Hp, -⟩, -⟩
  imodintro
  isplitl [Hh]; · iexact Hh
  isplitl [Hp]; · iexists _; iexact Hp
  iexists ∅; iexact HO

theorem hfinT (c : Dev nD) (s' : Phys nD τ sig (Elt F)) :
    iprop(TN m a0 d0 P c ∗ SI s')
      ⊢ (|={Set.univ}=> iprop(⌜∃ x, P c x ∧ ∀ b ∈ Pipeline.ucRefs τ sig, s'.mem.mem ((c : Thread nD τ).1, b) = U9 m a0 d0 c x b⌝ ∗ SI s') : sProp 𝕄) := by
  iintro ⟨⟨%x, %hx, Hh, -⟩, HSI⟩
  unfold StableHlo.held
  ihave Hr := (pointsTo_read_all (Pipeline.ucRefs τ sig) (fun b => ((c : Thread nD τ).1, b)) (U9 m a0 d0 c x) s') $$ [Hh HSI]
  · isplitl [Hh] <;> iassumption
  icases Hr with ⟨%h, HSI⟩
  imodintro
  isplitr
  · ipureintro; exact ⟨x, hx, h⟩
  iexact HSI

end Cert.Kernel.Run

end
-- ==== Proof.K.RunR.lean ====
import proofs.«411147_j8194797600876_3_alg».proof.Proof.Gen.Kernel.Regions
import proofs.«411147_j8194797600876_3_alg».proof.Proof.Gen.Kernel.Skeleton
import proofs.«411147_j8194797600876_3_alg».proof.Proof.Gen.Kernel.Points
import proofs.«411147_j8194797600876_3_alg».proof.Proof.K.Fold
import proofs.«411147_j8194797600876_3_alg».proof.Proof.K.R3
import proofs.«411147_j8194797600876_3_alg».proof.Proof.K.R0Arr
import proofs.«411147_j8194797600876_3_alg».proof.Proof.K.R0
import proofs.«411147_j8194797600876_3_alg».proof.Proof.K.Tail
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]

local notation "𝕄" => MT nD τ sig Unit (Elt F) ℕ (Pipeline.UD sig nD τ) ℕ

variable (m : (ℓ : Loc nD τ sig) → Buf (Elt F) ℓ)
variable (fg : Bool)
variable (a0 : (pcfg0 (F := F)).Adm) (d0 : (c : Dev nD) → Dat τ (Elt F) Unit ℕ (Pipeline.UD sig nD τ) ℕ (cfg0 a0) c)

/-- The tables' admissible contents: the first region's are given, the others have none. -/
abbrev adm : (p : Fin 4) → (pcfgs (F := F) p).Adm
  | ⟨0, _⟩ => a0
  | ⟨1, _⟩ => cfg1.toPCfg_adm
  | ⟨2, _⟩ => cfg2.toPCfg_adm
  | ⟨3, _⟩ => cfg3.toPCfg_adm
  | ⟨_ + 4, h⟩ => absurd h (Nat.not_lt.2 (Nat.le_add_left _ _))

abbrev cf (p : Fin 4) : Cfg sig Λ₀ := Pipeline.pin (pcfgs (F := F)) (adm a0) p

def fgt3 (w : Fin 4) : Bool := fg && decide (w = 3)

/-- Each region's proof data, at the contents the fold gives its entry. -/
def pdats : (p : Fin 4) → (c : Dev nD) → Dat τ (Elt F) Unit ℕ (Pipeline.UD sig nD τ) ℕ (cf a0 p) c
  | ⟨0, _⟩ => fun c => d0 c
  | ⟨1, _⟩ => fun c => R1.dat1 (W4 m a0 d0) c
  | ⟨2, _⟩ => fun c => R2.dat2 (W5 m a0 d0) c
  | ⟨3, _⟩ => fun c => R3.dat3 (W6 m a0 d0) c
  | ⟨_ + 4, h⟩ => absurd h (Nat.not_lt.2 (Nat.le_add_left _ _))
/-- The same as relations; the last region's result window says nothing when `fg`. -/
def rdats : (p : Fin 4) → (c : Dev nD) → RDat τ (Elt F) Unit ℕ (Pipeline.UD sig nD τ) ℕ (cf a0 p) c
  | ⟨3, _⟩ => fun c => (R3.dat3 (W6 m a0 d0) c).toRForget (fgt3 fg)
  | p => fun c => (pdats m a0 d0 p c).toR

def P3 (c : Dev nD) (x : Buf (Elt F) ((c : Thread nD τ).loc main_v10)) : Prop := (rdats m fg a0 d0 3 c).ArrAt 3 cfg3.N x

/-- Where the data owe nothing and allow every pair, the core's empty dues are the data's dues. -/
theorem owes_in {cfg : Cfg sig Λ₀} {c : Dev nD} (R : RDat τ (Elt F) Unit ℕ (Pipeline.UD sig nD τ) ℕ cfg c) (t : Fin (cfg.N + 1))
    (h0 : R.owed t = 0) (hr : R.recorded t = Set.univ) :
    (iprop(∃ W, owes (c : Thread nD τ) (0 : CellTallies nD τ sig Unit) W) : sProp 𝕄) ⊢ R.owesAt () t := by
  unfold Pipeline.RDat.owesAt Pipeline.owesWithin
  rw [h0]
  iintro ⟨%W, H⟩; iexists W; iframe H
  ipureintro; exact fun _ _ => Or.inl (by rw [hr]; trivial)

theorem owes_out {cfg : Cfg sig Λ₀} {c : Dev nD} (R : RDat τ (Elt F) Unit ℕ (Pipeline.UD sig nD τ) ℕ cfg c) (t : Fin (cfg.N + 1))
    (h0 : R.owed t = 0) :
    R.owesAt () t ⊢ (iprop(∃ W, owes (c : Thread nD τ) (0 : CellTallies nD τ sig Unit) W) : sProp 𝕄) := by
  unfold Pipeline.RDat.owesAt Pipeline.owesWithin
  rw [h0]
  iintro ⟨%W, -, H⟩; iexists W; iexact H

theorem unscopedRest_congr {gr W : Nat} (win : Fin W → Pipeline.WinSpec sig gr) (c : Dev nD)
    (V V' : (b : Ref sig .tc) → Buf (Elt F) ((c : Thread nD τ).loc b))
    (h : ∀ b, b ∉ Finset.univ.image (Pipeline.arrRef win) → V' b = V b) :
    (Pipeline.unscopedRest win c V' : sProp 𝕄) = Pipeline.unscopedRest win c V := by
  unfold Pipeline.unscopedRest
  exact bigSep_congr fun b hb => by rw [h b (Finset.mem_sdiff.mp hb).2]

theorem exitE {c : Dev nD} {A Z : sProp 𝕄} {V' : Valuation τ sig (Elt F)}
    (h : iprop(A ∗ Z) ⊢ (unscopedBufs c (fun b => V' b) : sProp 𝕄)) :
    iprop(A ∗ Z ∗ E c) ⊢ iprop(StableHlo.held (c : Thread nD τ) (Pipeline.ucRefs τ sig) V' ∗ E c) :=
  sep_assoc.2.trans (sep_mono (h.trans (Entails.of_eq (Pipeline.unscopedBufs_held c V'))) .rfl)

/-- A region with no table and no semaphore of its own: its arrays leave the unscoped buffers and rejoin them. -/
def regA (p : Fin 4) (win : Pipeline.WinFacts₀ (pcfgs (F := F) p).spec)
    (bp : ∀ w : Fin (cf a0 p).W, 0 < ((cf a0 p).spec w).block.numel)
    (sw : ∀ (w : Fin (cf a0 p).W) (s : Fin ((cf a0 p).spec w).nbuf), (((cf a0 p).spec w).stage s).IsWhole)
    (hb : ∀ c, (rdats m fg a0 d0 p c).BodyObligation (defs₀ (F := F)) 𝒱₀ () Set.univ)
    (hO : ∀ c t, (rdats m fg a0 d0 p c).owed t = 0) (hR : ∀ c, (rdats m fg a0 d0 p c).recorded 0 = Set.univ)
    (hΦ : ∀ c t, (rdats m fg a0 d0 p c).Φ t = Pipeline.ΦA (cf a0 p).spec c)
    (hK : IsEmpty (Fin (pcfgs (F := F) p).pre.K))
    (V : Dev nD → Valuation τ sig (Elt F)) (post : Dev nD → sProp 𝕄)
    (hen : ∀ c, (unscopedBufs c (fun b => V c b) : sProp 𝕄)
      ⊢ iprop((rdats m fg a0 d0 p c).arrays (rdats m fg a0 d0 p c).A ∗ Pipeline.unscopedRest (cf a0 p).spec c (fun b => V c b)))
    (hex : ∀ c, iprop((rdats m fg a0 d0 p c).arraysAt (cf a0 p).N ∗ Pipeline.unscopedRest (cf a0 p).spec c (fun b => V c b) ∗ E c) ⊢ post c) :
    Pipeline.RDat.RegionSeg (pcfgs (F := F)) (adm a0) (rdats m fg a0 d0) () defs₀ 𝒱₀ L lv p where
  win := win
  block_pos := bp
  stage_whole := sw
  K := PEmpty
  osem k := k.elim
  ho := Pipeline.OwnSemFacts.none _
  hbody := hb
  hwaits := Pipeline.RDat.hwaits_of_owed_zero _ _ _ _ L lv p hO
  pre c := iprop(StableHlo.held (c : Thread nD τ) (Pipeline.ucRefs τ sig) (V c) ∗ E c)
  post := post
  X c := iprop(∃ r, prngReg c r)
  Y c := iprop(∃ r, prngReg c r)
  Z c := Pipeline.unscopedRest (cf a0 p).spec c (fun b => V c b)
  hentry c := by
    have h := hen c
    rw [Pipeline.unscopedBufs_held] at h
    iintro ⟨⟨Hu, Hp, HO⟩, -, -⟩
    ihave H := h $$ Hu
    icases H with ⟨Ha, Hz⟩
    ihave HO' := owes_in _ 0 (hO c 0) (hR c) $$ HO
    imodintro
    iframe Ha Hp HO' Hz
    unfold Pipeline.prefHeld; rw [Finset.univ_eq_empty, BI.bigSep_empty]; iempintro
  hin c := by
    rw [hΦ c 0]; unfold Pipeline.ΦA
    iintro ⟨Hp, -, Hr⟩; iframe
  hout c := by
    rw [hΦ c _, Pipeline.ownSems0_none]; unfold Pipeline.ΦA
    iintro ⟨Hr, Hp⟩; iframe; iempintro
  hexit c := by
    iintro ⟨Ha, HO, HY, Hz⟩
    ihave HO' := owes_out _ _ (hO c _) $$ HO
    imodintro
    iapply hex c
    unfold E; iframe

theorem hF1 (c : Dev nD) (w : Fin cfg1.W) : (R1.dat1 (W4 m a0 d0) c).arrAt w cfg1.N = W5 m a0 d0 c (Pipeline.arrRef spec1 w) := by
  by_cases hw : w = 5
  · subst hw; exact (U5_v8 m a0 d0 c).symm
  · rw [(R1.dat1 (W4 m a0 d0) c).arrAt_in w (by revert w; decide) _]
    exact (U5_of m a0 d0 c _ (by revert w; decide)).symm

theorem hen1 (c : Dev nD) : (unscopedBufs c (W4 m a0 d0 c) : sProp 𝕄)
    ⊢ iprop((rdats m fg a0 d0 1 c).arrays (rdats m fg a0 d0 1 c).A ∗ Pipeline.unscopedRest spec1 c (W4 m a0 d0 c)) := by
  rw [Pipeline.unscopedBufs_split₀ (cf a0) (1 : Fin 4) winFacts₀1.arr_unscoped c]
  exact sep_mono (R1.entry_arrays1 (W4 m a0 d0) c) .rfl

theorem hex1 (c : Dev nD) : iprop((rdats m fg a0 d0 1 c).arraysAt cfg1.N ∗ Pipeline.unscopedRest spec1 c (W4 m a0 d0 c) ∗ E c)
    ⊢ (iprop(StableHlo.held (c : Thread nD τ) (Pipeline.ucRefs τ sig) (U5 m a0 d0 c) ∗ E c) : sProp 𝕄) := by
  refine exitE ((BI.sep_mono ?_ (Entails.of_eq (unscopedRest_congr spec1 c (W4 m a0 d0 c) (W5 m a0 d0 c) fun b hb =>
    U5_of m a0 d0 c b fun e => hb (Finset.mem_image.mpr ⟨5, Finset.mem_univ _, e.symm⟩)).symm)).trans
    (Entails.of_eq (Pipeline.unscopedBufs_split₀ (cf a0) (1 : Fin 4) winFacts₀1.arr_unscoped c (W5 m a0 d0 c)).symm))
  exact (Entails.of_eq ((R1.dat1 (W4 m a0 d0) c).toR_arraysAt_eq cfg1.N)).trans
    (R1.exit_arrays1 (W4 m a0 d0) c (W5 m a0 d0 c) (hF1 m a0 d0 c))

def reg1 :=
  regA m fg a0 d0 1 winFacts₀1 block_pos1 stage_whole1 (fun c => (R1.body_obligation1 (W4 m a0 d0) c).loose.toR)
    (fun _ _ => rfl) (fun _ => rfl) (fun _ _ => rfl) ⟨Fin.elim0⟩ (U4 m a0 d0) _ (hen1 m fg a0 d0) (hex1 m fg a0 d0)

theorem hF2 (c : Dev nD) (w : Fin cfg2.W) : (R2.dat2 (W5 m a0 d0) c).arrAt w cfg2.N = W6 m a0 d0 c (Pipeline.arrRef spec2 w) := by
  by_cases hw : w = 6
  · subst hw; exact (U6_v9 m a0 d0 c).symm
  · rw [R2.final2_in (W5 m a0 d0) c w hw]
    exact (U6_of m a0 d0 c _ (by revert w; decide)).symm

def reg2 :=
  regA m fg a0 d0 2 winFacts2.to₀ block_pos2 stage_whole2 (fun c => (R2.body_obligation2 (W5 m a0 d0) c).loose.toR)
    (fun _ _ => rfl) (fun _ => rfl) (fun _ _ => rfl) ⟨Fin.elim0⟩ (U5 m a0 d0)
    (fun c => iprop(StableHlo.held (c : Thread nD τ) (Pipeline.ucRefs τ sig) (U6 m a0 d0 c) ∗ E c))
    (fun c => Pipeline.RDat.arrays_of_unscopedBufs (p := 2) (pcfgs (F := F)) (adm a0) (rdats m fg a0 d0) winFacts2 arr_whole2 c
      ((R2.dat2 (W5 m a0 d0) c).share_full fun _ => rfl) (W5 m a0 d0 c) fun _ => rfl)
    (fun c => exitE ((sep_mono (Entails.of_eq ((R2.dat2 (W5 m a0 d0) c).toR_arraysAt_eq cfg2.N)) .rfl).trans
      (Pipeline.unscopedBufs_of_arrays (p := 2) (pcfgs (F := F)) (adm a0) winFacts2 arr_whole2 c (pdats m a0 d0)
        ((pdats m a0 d0 2 c).share_full fun _ => rfl) (W5 m a0 d0 c) (W6 m a0 d0 c) ((pdats m a0 d0 2 c).arrAt · cfg2.N) (hF2 m a0 d0 c)
        fun b hb => U6_of m a0 d0 c b fun e => hb (Finset.mem_image.mpr ⟨6, Finset.mem_univ _, e.symm⟩))))

variable (hA0 : ∀ c w, (d0 c).A w = W3 m c (Pipeline.arrRef spec0 w))
    (hΦ0 : ∀ c t, (d0 c).Φ t = R0.Φ0 (W3 m) a0 c)
    (hO0 : ∀ c t, (d0 c).owed t = 0)
    (hR0 : ∀ c t, (d0 c).recorded t = Set.univ)
    (hq0 : ∀ c, (d0 c).q = R0Arr.q0)
    (hb0 : ∀ c, BodyObligation (d0 c) (defs₀ (F := F)) Variants.none () Set.univ)
    (htbl : ∀ c : Dev nD, a0.1 = fun k => W3 m c (pre0.ref k))
    (hb3 : ∀ c, ((R3.dat3 (W6 m a0 d0) c).toRForget (fgt3 fg)).BodyObligation (defs₀ (F := F)) 𝒱₀ () Set.univ)

set_option maxHeartbeats 2000000 in
/-- No input array is written, so at the exit only the result array's contents are open. -/
theorem exit3 (c : Dev nD) :
    iprop((rdats m fg a0 d0 3 c).arraysAt cfg3.N ∗ Pipeline.unscopedRest spec3 c (W6 m a0 d0 c) ∗ E c)
      ⊢ (iprop(∃ x, ⌜P3 m fg a0 d0 c x⌝ ∗ StableHlo.held (c : Thread nD τ) (Pipeline.ucRefs τ sig) (U7 m a0 d0 c x) ∗ E c) : sProp 𝕄) := by
  have h1 : ∀ w : Fin 4, w ≠ 3 → Pipeline.arrRef spec3 w ≠ main_v10 := by decide
  have h2 : ∀ w : Fin 4, w ≠ 3 → (cfg3.win w).isOut = false := by decide
  have e (w : Fin 4) (hw : w ≠ 3) (x) (G) (h : (rdats m fg a0 d0 3 c).ArrAt w cfg3.N G) : U7 m a0 d0 c x (Pipeline.arrRef spec3 w) = G :=
    (U7_of m a0 d0 c x _ (h1 w hw)).trans (((R3.dat3 (W6 m a0 d0) c).arrAt_in w (h2 w hw) _).symm.trans
      (((R3.dat3 (W6 m a0 d0) c).toRForget_arrAt_iff (fgt := fgt3 fg) (by rw [fgt3, decide_eq_false hw, Bool.and_false]) _ G).mp h).symm)
  unfold Pipeline.RDat.arraysAt
  rw [bigSep_W3]
  iintro ⟨⟨⟨%F0, %h0, H0⟩, ⟨%F1, %h1, H1⟩, ⟨%F2, %h2, H2⟩, ⟨%x, %hx, H3⟩⟩, Hz, HE⟩
  iexists x
  iframe HE
  isplitr; · ipureintro; exact hx
  rw [← Pipeline.unscopedBufs_held]
  iapply Pipeline.unscopedBufs_of_arrays (p := 3) (pcfgs (F := F)) (adm a0) winFacts3 arr_whole3 c (pdats m a0 d0)
    ((pdats m a0 d0 3 c).share_full fun _ => rfl) (W6 m a0 d0 c) (fun b => U7 m a0 d0 c x b) (fun w => U7 m a0 d0 c x (Pipeline.arrRef spec3 w))
    (fun _ => rfl) fun b hb => U7_of m a0 d0 c x b fun e => hb (Finset.mem_image.mpr ⟨3, Finset.mem_univ _, e.symm⟩)
  iframe Hz
  unfold Pipeline.Dat.arrays
  rw [bigSep_W3]
  dsimp only
  rw [e 0 (by decide) x F0 h0, e 1 (by decide) x F1 h1, e 2 (by decide) x F2 h2, U7_v10]
  isplitl [H0]; · iexact H0
  isplitl [H1]; · iexact H1
  isplitl [H2]; · iexact H2
  iexact H3

def reg3 :=
  regA m fg a0 d0 3 winFacts3.to₀ block_pos3 stage_whole3 hb3 (fun _ _ => rfl) (fun _ => rfl) (fun _ _ => rfl) ⟨Fin.elim0⟩ (U6 m a0 d0) _
    (fun c => Pipeline.RDat.arrays_of_unscopedBufs (p := 3) (pcfgs (F := F)) (adm a0) (rdats m fg a0 d0) winFacts3 arr_whole3 c
      ((R3.dat3 (W6 m a0 d0) c).share_full fun _ => rfl) (W6 m a0 d0 c) fun _ => rfl)
    (exit3 m fg a0 d0)

include hA0 in
theorem hF0 (c : Dev nD) (w : Fin 8) :
    (d0 c).arrAt w (cfg0 a0).N = W4 m a0 d0 c (Pipeline.arrRef spec0 w) := by
  rcases Nat.lt_or_ge w.1 5 with h | h
  · rw [(d0 c).arrAt_in w ((by decide : ∀ w : Fin 8, w.1 < 5 → (spec0 w).isOut = false) w h) _, hA0]
    exact (U4_of m a0 d0 c _ (by revert w; decide)).symm
  · obtain rfl | rfl | rfl : w = 5 ∨ w = 6 ∨ w = 7 := by revert w; decide
    exacts [(U4_v7_0 m a0 d0 c).symm, (U4_v7_1 m a0 d0 c).symm, (U4_v7_2 m a0 d0 c).symm]

/-- The unscoped buffers sorted for the first region: its arrays' buffers at `V'`, all others at the entry contents. -/
theorem held0 (c : Dev nD) (V' : Valuation τ sig (Elt F)) (h : ∀ b, b ∉ Finset.univ.image (Pipeline.arrRef spec0) → V' b = W3 m c b)
    (htbl : a0.1 = fun k => W3 m c (pre0.ref k)) :
    (StableHlo.held (c : Thread nD τ) (Pipeline.ucRefs τ sig) V' : sProp 𝕄)
      = iprop(Pipeline.arrBufs spec0 c (fun b => V' b) ∗ Pipeline.prefHeld pre0 c (fun _ => fullShare) a0.1
          ∗ (bigSep R0.H0 fun b => ((c : Thread nD τ).loc b) ↦{fullShare} W3 m c b)
          ∗ bigSep (Pipeline.restRefsP sig pre0 spec0 \ R0.H0) fun b => ((c : Thread nD τ).loc b) ↦{fullShare} W3 m c b) := by
  have h1 : (unscopedBufs c (fun b => V' b) : sProp 𝕄)
      = iprop(Pipeline.arrBufs spec0 c (fun b => V' b) ∗ Pipeline.unscopedRest spec0 c (fun b => V' b)) :=
    Pipeline.unscopedBufs_split₀ (cf a0) (0 : Fin 4) winFacts₀0.arr_unscoped c _
  rw [htbl, ← Pipeline.unscopedBufs_held, h1, unscopedRest_congr spec0 c (W3 m c) (fun b => V' b) h,
    Pipeline.unscopedRest_split preFacts0, Pipeline.unscopedRestP_sdiff pre0 spec0 R0.H0 (by decide)]

def reg0 :
    Pipeline.RDat.RegionSeg (pcfgs (F := F)) (adm a0) (rdats m fg a0 d0) () defs₀ 𝒱₀ L lv 0 where
  win := winFacts₀0
  block_pos := block_pos0
  stage_whole := stage_whole0
  K := Fin 1
  osem := R0.osem0
  ho := R0.ownSemFacts0
  hbody c := (hb0 c).loose.toR
  hwaits := Pipeline.RDat.hwaits_of_owed_zero _ _ _ _ L lv 0 hO0
  pre c := iprop(StableHlo.held (c : Thread nD τ) (Pipeline.ucRefs τ sig) (V3 m c) ∗ E c)
  post c := iprop(StableHlo.held (c : Thread nD τ) (Pipeline.ucRefs τ sig) (U4 m a0 d0 c) ∗ E c)
  X c := iprop((∃ r, prngReg c r) ∗ Pipeline.ownSems0 R0.osem0 c
    ∗ (bigSep R0.H0 fun b => ((c : Thread nD τ).loc b) ↦{fullShare} W3 m c b))
  Y c := iprop((∃ r, prngReg c r) ∗ (bigSep R0.H0 fun b => ((c : Thread nD τ).loc b) ↦{fullShare} W3 m c b)
    ∗ Pipeline.prefHeld pre0 c (fun _ => fullShare) a0.1)
  Z c := bigSep (Pipeline.restRefsP sig pre0 spec0 \ R0.H0) fun b => ((c : Thread nD τ).loc b) ↦{fullShare} W3 m c b
  hentry c := by
    rw [held0 m a0 c (V3 m c) (fun _ _ => rfl) (htbl c)]
    iintro ⟨⟨⟨Ha, Ht, HH, HR⟩, Hp, HO⟩, Hos, -⟩
    ihave Ha' := ((R0Arr.entry_arrays0 a0 c (d0 c) (W3 m c) (hq0 c) (hA0 c)).trans
      (Entails.of_eq (show _ = (rdats m fg a0 d0 0 c).arrays (rdats m fg a0 d0 0 c).A from rfl))) $$ Ha
    ihave HO' := owes_in (rdats m fg a0 d0 0 c) 0 (hO0 c 0) (hR0 c 0) $$ HO
    imodintro
    isplitl [Ha']; · iexact Ha'
    iframe HO' Hp Hos HH HR
    iexact Ht
  hin c := by
    rw [show (rdats m fg a0 d0 0 c).Φ 0 = R0.Φ0 (W3 m) a0 c from hΦ0 c 0, R0.Φ0_eq]
    iintro ⟨⟨Hp, Ho, HH⟩, Ht, Hr⟩
    iframe Hp Ho HH Hr
    iexact Ht
  hout c := by
    rw [show (rdats m fg a0 d0 0 c).Φ (Fin.last _) = R0.Φ0 (W3 m) a0 c from hΦ0 c _, R0.Φ0_eq]
    iintro ⟨⟨Hr, Hp, Ho, HH⟩, Ht⟩
    iframe
  hexit c := by
    refine (sep_mono (Entails.of_eq ((d0 c).toR_arraysAt_eq (cfg0 a0).N)) .rfl).trans ?_
    rw [held0 m a0 c (U4 m a0 d0 c) (fun b hb => U4_of m a0 d0 c b fun h => hb
      ((by decide : ∀ b ∈ ([main_v7_0, main_v7_1, main_v7_2] : List (Ref sig .tc)), b ∈ Finset.univ.image (Pipeline.arrRef spec0)) b h)) (htbl c)]
    iintro ⟨Ha, HO, ⟨HY, HH, Ht⟩, HR⟩
    ihave Ha' := (R0Arr.exit_arrays0 a0 c (d0 c) (W4 m a0 d0 c) (hq0 c) _ (hF0 m a0 d0 hA0 c)) $$ Ha
    ihave HO' := owes_out (rdats m fg a0 d0 0 c) (Fin.last _) (hO0 c _) $$ HO
    imodintro
    unfold E; iframe

include hA0 hΦ0 hO0 hR0 hq0 hb0 htbl hb3 in
/-- Every fair execution ends, each unscoped buffer at the fold's last valuation for some result of the last region. -/
theorem run_main (ρ : Dev nD → PrngReg) :
    θ_run defs (onTc (τ := τ) (main (F := F))) ⟨m, fun _ => 0, ρ⟩ (fun r => ∀ c : Dev nD,
      ∃ x, P3 m fg a0 d0 c x ∧ ∀ b ∈ Pipeline.ucRefs τ sig, r.2.mem ((c : Thread nD τ).1, b) = U9 m a0 d0 c x b) := by
  refine Pipeline.RDat.θ_run_regions_kit_dev (pcfgs (F := F)) (adm a0) (rdats m fg a0 d0) () (cellOf_inj (adm a0)) embL defs₀ 𝒱₀ L lv m ρ main
    (fun _ => [.host (seg0 m 𝒱₀ L lv fun _ => E), .host (seg1 m 𝒱₀ L lv fun _ => E), .host (seg2 m 𝒱₀ L lv fun _ => E),
      .region (reg0 m fg a0 d0 hA0 hΦ0 hO0 hR0 hq0 hb0 htbl), .region (reg1 m fg a0 d0), .region (reg2 m fg a0 d0),
      .region (reg3 m fg a0 d0 hb3), .host (seg7x m a0 d0 (P3 m fg a0 d0)), .host (seg8x m a0 d0 (P3 m fg a0 d0))])
    (fun c Q => by rewrite [main_chain c, Pipeline.RDat.Seg.run_eq_chain]; exact .rfl)
    (fun c => by simp only [Pipeline.RDat.Seg.pipes_host, Pipeline.RDat.Seg.pipes_region, Pipeline.RDat.Seg.pipes_nil]; decide)
    (O₀ := 0) (hL := fun _ _ => rfl) (G := fun _ => BI.emp)
    (u₀ := (initOf (Pipeline.cells (cf a0) (cellOf_inj (adm a0))) (Pipeline.launchToks (cf a0) (cellOf_inj (adm a0))), 1))
    (hu₀ := by
      iintro Hu
      ihave H := (ownU_pair _ _) $$ Hu
      icases H with ⟨HP, -⟩
      imodintro
      iframe HP
      rw [BI.bigSep_emp_const]; iempintro)
    (T₀ := T0 m) (Tₙ := TN m a0 d0 (P3 m fg a0 d0))
    (hch := fun c => ⟨.rfl, .rfl, .rfl, .rfl, .rfl, .rfl, .rfl, .rfl, .rfl, by
      show iprop(∃ x, ⌜P3 m fg a0 d0 c x⌝ ∗ StableHlo.held (c : Thread nD τ) (Pipeline.ucRefs τ sig) (U9 m a0 d0 c x) ∗ E c) ⊢ iprop(_ ∗ _)
      iintro ⟨%x, %hx, Hh, Hp, HO⟩
      iframe HO
      iexists x
      iframe
      ipureintro; exact hx⟩)
    (hinit := hinitT m ρ)
    (QY := fun c s => ∃ x, P3 m fg a0 d0 c x ∧ ∀ b ∈ Pipeline.ucRefs τ sig, s.mem ((c : Thread nD τ).1, b) = U9 m a0 d0 c x b)
    (hfin := fun c s' => hfinT m a0 d0 (P3 m fg a0 d0) c s') (hQ := fun _ h => h)

end Cert.Kernel.Run

end
-- ==== Proof.K.Clip.lean ====
/- `min (50256, max (0, w))` on signed 32-bit words lies in `[0, 50256]` for every `w`, and is `w` when `0 ≤ w < 50257`. -/
import proofs.«411147_j8194797600876_3_alg».proof.Proof.Gen.Kernel.Regions
import Idealize.ShloMosaic.Lib.StableHlo.Run
import Idealize.ShloMosaic.Lib.StableHlo.Predicate
import Idealize.ShloMosaic.Lib.ValueIdx

noncomputable section

namespace Cert.Kernel.HostVal

open Idealize.ShloMosaic Idealize.ShloMosaic.TcCoe Idealize.ShloMosaic.ValueIdx
open Idealize.SL.Sem
open Cert.Kernel Cert.Kernel.Gen

variable {F : FTy → Type} [FloatOps F]

abbrev clipWord (a : BitVec 32) : BitVec 32 := IntOp.minsi 50256#32 (IntOp.maxsi 0#32 a)

theorem clipWord_toNat_le (a : BitVec 32) : (clipWord a).toNat ≤ 50256 := by
  have h0 : (0#32 : BitVec 32).toInt = 0 := by decide
  have h1 : (50256#32 : BitVec 32).toInt = 50256 := by decide
  have ha := BitVec.toInt_eq_toNat_cond a
  unfold clipWord IntOp.minsi IntOp.maxsi
  by_cases hs : a.slt 0#32 = true
  · rw [if_pos hs]
    have : ¬ ((50256#32 : BitVec 32).slt 0#32 = true) := by decide
    rw [if_neg this]; decide
  · rw [if_neg hs]
    by_cases hb : (50256#32 : BitVec 32).slt a = true
    · rw [if_pos hb]; decide
    · rw [if_neg hb]
      simp only [BitVec.slt, h0, h1, decide_eq_true_eq] at hs hb
      split at ha <;> omega

theorem clipWord_of_lt (t : Fin 50257) : clipWord (BitVec.ofNat 32 t.val) = BitVec.ofNat 32 t.val := by
  have ht := t.isLt
  have hti : (BitVec.ofNat 32 t.val).toInt = t.val := StableHlo.Predicate.toInt_ofNat_small t.val (by omega)
  have h0 : (0#32 : BitVec 32).toInt = 0 := by decide
  have h1 : (50256#32 : BitVec 32).toInt = 50256 := by decide
  unfold clipWord IntOp.minsi IntOp.maxsi
  have hs : ¬ ((BitVec.ofNat 32 t.val).slt 0#32 = true) := by
    simp only [BitVec.slt, hti, h0, decide_eq_true_eq]; omega
  rw [if_neg hs]
  have hb : ¬ ((50256#32 : BitVec 32).slt (BitVec.ofNat 32 t.val) = true) := by
    simp only [BitVec.slt, hti, h1, decide_eq_true_eq]; omega
  rw [if_neg hb]

theorem chk1_of_le (w : BitVec 32) (h : w.toNat ≤ 50256) : k0_chk1 w := by
  intro a
  match a with
  | ⟨0, _⟩ => show w.toNat + 1 ≤ 50257; omega
  | ⟨1, _⟩ => show 0 + 1024 ≤ 1024; omega

section Launch

variable (m : (ℓ : Loc nD τ sig) → Buf (Elt F) ℓ)

theorem V3_main_v1 (c : Dev nD) :
    (V3 m c main_v1 : IVec S1 32)
      = minsi (broadcastInDim S1 ![] bcast_S_S1 (constantI S_ 32 50256#32))
          (maxsi (broadcastInDim S1 ![] bcast_S_S1 (constantI S_ 32 0#32)) (m ((c : Thread nD τ).loc main_arg0))) := by
  rw [V3_of m c main_v1 (by decide)]
  dsimp only [V2, V1, V0, hostOps0_1, hostOps0]
  after_results
  rfl

theorem V3_main_v1_word (c : Dev nD) :
    (V3 m c main_v1 : IVec S1 32) (ix1 0) = clipWord ((m ((c : Thread nD τ).loc main_arg0) : IVec S1 32) (ix1 0)) := by
  rw [V3_main_v1]; rfl

theorem V3_main_v1_chk (c : Dev nD) : k0_chk1 ((V3 m c main_v1 : IVec S1 32) (ix1 0)) := by
  rw [V3_main_v1_word]; exact chk1_of_le _ (clipWord_toNat_le _)

theorem V3_main_v1_of_token (c : Dev nD) (t : Fin 50257)
    (ht : (m ((c : Thread nD τ).loc main_arg0) : IVec S1 32) (ix1 0) = BitVec.ofNat 32 t.val) :
    (V3 m c main_v1 : IVec S1 32) (ix1 0) = BitVec.ofNat 32 t.val
      ∧ ((V3 m c main_v1 : IVec S1 32) (ix1 0)).toNat = t.val := by
  have e : (V3 m c main_v1 : IVec S1 32) (ix1 0) = BitVec.ofNat 32 t.val := by
    rw [V3_main_v1_word, ht, clipWord_of_lt]
  refine ⟨e, ?_⟩
  rw [e, BitVec.toNat_ofNat]
  have := t.isLt
  omega

end Launch

end Cert.Kernel.HostVal

end
-- ==== Proof.K.Inst.lean ====
/- The first region's token table at the launch memory: one word, the clamped token, which names a row of the embedding
   table. -/
import proofs.«411147_j8194797600876_3_alg».proof.Proof.K.Fold
import proofs.«411147_j8194797600876_3_alg».proof.Proof.K.R0
import proofs.«411147_j8194797600876_3_alg».proof.Proof.K.Clip
import Idealize.ShloMosaic.Lib.ValueIdx

set_option maxRecDepth 16384

noncomputable section

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx (ix1)
variable {F : FTy → Type} [FloatOps F]

variable (m : (ℓ : Loc nD τ sig) → Buf (Elt F) ℓ)

def tbl : pre0.Contents (Elt F) := fun k => W3 m (0 : Dev nD) (pre0.ref k)

def a0 : (pcfg0 (F := F)).Adm := ⟨tbl m, trivial⟩

theorem htbl (c : Dev nD) : (a0 m).1 = fun k => W3 m c (pre0.ref k) := by
  obtain rfl : c = 0 := Subsingleton.elim _ _
  rfl

theorem off0 : (![0] : Fin 1 → Nat) = fun _ => 0 := funext fun a => by fin_cases a; rfl

theorem tok0_word (a : (pcfg0 (F := F)).Adm) : R0.tok0 a = (a.1 0 : IVec S1 32) (ix1 0) :=
  (congrFun (Memref.readAt_unit_zero (Elt F) main_v1 off0 inb_S1_S1_0 (a.1 0))
      (Shape.Idx.first (numel1_S1.symm ▸ Nat.one_pos))).trans
    (congrArg (a.1 0 : IVec S1 32) (funext fun d => match d with | ⟨0, _⟩ => rfl))

theorem tok0_at (W : (b : Ref sig .tc) → Buf (Elt F) (((0 : Dev nD) : Thread nD τ).loc b)) :
    R0.tok0 (⟨fun k => W (pre0.ref k), trivial⟩ : (pcfg0 (F := F)).Adm) = (W main_v1 : IVec S1 32) (ix1 0) :=
  tok0_word _

theorem tok0_eqW : R0.tok0 (a0 m) = (W3 m (0 : Dev nD) main_v1 : IVec S1 32) (ix1 0) := tok0_at (W3 m 0)
theorem tok0_eq : R0.tok0 (a0 m) = (V3 m (0 : Dev nD) main_v1 : IVec S1 32) (ix1 0) := tok0_eqW m

theorem hchk : k0_chk1 (R0.tok0 (a0 m)) := by
  rw [tok0_eq]; exact HostVal.V3_main_v1_chk m 0

theorem tok0_of_token (t : Fin 50257)
    (ht : (m (((0 : Dev nD) : Thread nD τ).loc main_arg0) : IVec S1 32) (ix1 0) = BitVec.ofNat 32 t.val) :
    (R0.tok0 (a0 m)).toNat = t.val := by
  rw [tok0_eq]; exact (HostVal.V3_main_v1_of_token m 0 t ht).2

end Cert.Kernel.Run

end
-- ==== Proof.K.Read.lean ====
import proofs.«411147_j8194797600876_3_alg».proof.Proof.K.Fold
import proofs.«411147_j8194797600876_3_alg».proof.Proof.Gen.Kernel.Regions
import Idealize.ShloMosaic.Lib.ValueIdx
import Idealize.ShloMosaic.Lib.ValueLayout

set_option maxRecDepth 16384

noncomputable section

namespace Cert.Kernel.Run
open Cert.Kernel Cert.Kernel.Gen
open Idealize.ShloMosaic Idealize.ShloMosaic.TcCoe Idealize.ShloMosaic.ValueIdx
open Idealize.SL Idealize.SL.Sem
open Idealize.ShloMosaic.Pipeline (Dat)
variable {F : FTy → Type} [FloatOps F]

variable (m : (ℓ : Loc nD τ sig) → Buf (Elt F) ℓ)
variable (a0 : (pcfg0 (F := F)).Adm) (d0 : (c : Dev nD) → Dat τ (Elt F) Unit ℕ (Pipeline.UD sig nD τ) ℕ (cfg0 a0) c)

theorem U9_of (c : Dev nD) (x) (r : Ref sig .tc) (h : r ∉ hostOps4_1_W) : U9 m a0 d0 c x r = U8 m a0 d0 c x r :=
  StableHlo.after_of_writes_sub hostOps4_1 _ hostOps4_1_writes h
theorem U8_of (c : Dev nD) (x) (r : Ref sig .tc) (h : r ∉ hostOps4_W) : U8 m a0 d0 c x r = U7 m a0 d0 c x r :=
  StableHlo.after_of_writes_sub hostOps4 _ hostOps4_writes h

/-- The program's fourteen arguments. -/
abbrev args : List (Ref sig .tc) :=
  [main_arg0, main_arg1, main_arg2, main_arg3, main_arg4, main_arg5, main_arg6, main_arg7, main_arg8, main_arg9, main_arg10,
    main_arg11, main_arg12, main_arg13]

/-- No host stretch writes an argument and none is a region's result, so it ends as it was launched. -/
theorem U9_arg (c : Dev nD) (x) (r : Ref sig .tc) (hr : r ∈ args) : U9 m a0 d0 c x r = m ((c : Thread nD τ).loc r) := by
  obtain ⟨h9, h8, h7, h6, h5, h4, h3, h2, h1⟩ := (by decide : ∀ r ∈ args, r ∉ hostOps4_1_W ∧ r ∉ hostOps4_W ∧ r ≠ main_v10
    ∧ r ≠ main_v9 ∧ r ≠ main_v8 ∧ r ∉ ([main_v7_0, main_v7_1, main_v7_2] : List (Ref sig .tc)) ∧ r ∉ hostOps0_2_W
    ∧ r ∉ hostOps0_1_W ∧ r ∉ hostOps0_W) r hr
  exact (U9_of m a0 d0 c x r h9).trans <| (U8_of m a0 d0 c x r h8).trans <| (U7_of m a0 d0 c x r h7).trans <|
    (U6_of m a0 d0 c r h6).trans <| (U5_of m a0 d0 c r h5).trans <| (U4_of m a0 d0 c r h4).trans <|
    (V3_of m c r h3).trans <| (V2_of m c r h2).trans <| (V1_of m c r h1).trans rfl

/-- In the memory `M` every argument's buffer holds what it held at launch. -/
def Kept (M : (ℓ : Loc nD τ sig) → Buf (Elt F) ℓ) (c : Dev nD) : Prop :=
  M ((c.tc : Thread nD τ).loc main_arg0) = m ((c.tc : Thread nD τ).loc main_arg0)
  ∧ M ((c.tc : Thread nD τ).loc main_arg1) = m ((c.tc : Thread nD τ).loc main_arg1)
  ∧ M ((c.tc : Thread nD τ).loc main_arg2) = m ((c.tc : Thread nD τ).loc main_arg2)
  ∧ M ((c.tc : Thread nD τ).loc main_arg3) = m ((c.tc : Thread nD τ).loc main_arg3)
  ∧ M ((c.tc : Thread nD τ).loc main_arg4) = m ((c.tc : Thread nD τ).loc main_arg4)
  ∧ M ((c.tc : Thread nD τ).loc main_arg5) = m ((c.tc : Thread nD τ).loc main_arg5)
  ∧ M ((c.tc : Thread nD τ).loc main_arg6) = m ((c.tc : Thread nD τ).loc main_arg6)
  ∧ M ((c.tc : Thread nD τ).loc main_arg7) = m ((c.tc : Thread nD τ).loc main_arg7)
  ∧ M ((c.tc : Thread nD τ).loc main_arg8) = m ((c.tc : Thread nD τ).loc main_arg8)
  ∧ M ((c.tc : Thread nD τ).loc main_arg9) = m ((c.tc : Thread nD τ).loc main_arg9)
  ∧ M ((c.tc : Thread nD τ).loc main_arg10) = m ((c.tc : Thread nD τ).loc main_arg10)
  ∧ M ((c.tc : Thread nD τ).loc main_arg11) = m ((c.tc : Thread nD τ).loc main_arg11)
  ∧ M ((c.tc : Thread nD τ).loc main_arg12) = m ((c.tc : Thread nD τ).loc main_arg12)
  ∧ M ((c.tc : Thread nD τ).loc main_arg13) = m ((c.tc : Thread nD τ).loc main_arg13)

/-- A memory that holds the last valuation at every unscoped buffer keeps the arguments: each is unscoped. -/
theorem kept (M : (ℓ : Loc nD τ sig) → Buf (Elt F) ℓ) (c : Dev nD) (x)
    (hx : ∀ b ∈ Pipeline.ucRefs τ sig, M ((c : Thread nD τ).1, b) = U9 m a0 d0 c x b) : Kept m M c :=
  have k : ∀ r ∈ args, M ((c.tc : Thread nD τ).loc r) = m ((c.tc : Thread nD τ).loc r) := fun r hr =>
    (hx _ (Finset.mem_filter.mpr ⟨StableHlo.devRef_mem_tcRefs r,
      (by decide : ∀ r ∈ args, ¬ (Proc.devRef .tc r : DevRef τ sig).isScoped) r hr⟩)).trans (U9_arg m a0 d0 c x r hr)
  ⟨k _ (by decide), k _ (by decide), k _ (by decide), k _ (by decide), k _ (by decide), k _ (by decide), k _ (by decide), k _ (by decide), k _ (by decide), k _ (by decide), k _ (by decide), k _ (by decide), k _ (by decide), k _ (by decide)⟩

/-- Nothing after region 0 writes the attention weights. -/
theorem U9_v7_1 (c : Dev nD) (x) : U9 m a0 d0 c x main_v7_1 = x71 a0 d0 c :=
  (U9_of m a0 d0 c x main_v7_1 (by decide)).trans <| (U8_of m a0 d0 c x main_v7_1 (by decide)).trans <|
    (U7_of m a0 d0 c x main_v7_1 (by decide)).trans <| (U6_of m a0 d0 c main_v7_1 (by decide)).trans <|
    (U5_of m a0 d0 c main_v7_1 (by decide)).trans (U4_v7_1 m a0 d0 c)

theorem U8_v9 (c : Dev nD) (x) : U8 m a0 d0 c x main_v9 = x9 m a0 d0 c :=
  (U8_of m a0 d0 c x main_v9 (by decide)).trans <| (U7_of m a0 d0 c x main_v9 (by decide)).trans (U6_v9 m a0 d0 c)

/-- The last result is the new hidden state reshaped to `[1, 1, 1024]`. -/
theorem U9_v12 (c : Dev nD) (x) :
    U9 m a0 d0 c x main_v12 = shapeCast S1x1x1024 (x9 m a0 d0 c) shapeCasts_S1x1024_S1x1x1024 := by
  unfold U9
  simp only [StableHlo.after_cons, StableHlo.after_nil]
  rw [StableHlo.reshape_result, U8_v9]
  rfl

theorem U9_v12_apply (c : Dev nD) (x) (k : Fin 1024) :
    U9 m a0 d0 c x main_v12 (ix3 (0 : Fin 1) (0 : Fin 1) k) = x9 m a0 d0 c (ix2 (0 : Fin 1) k) := by
  rw [U9_v12]
  exact shapeCast_ab_1ab_apply _ _ _ _ _

/-- The last stretch does not write the log-softmax result. -/
theorem U9_v11 (c : Dev nD) (x) : U9 m a0 d0 c x main_v11 = (StableHlo.after hostOps4 (U7 m a0 d0 c x)) main_v11 :=
  U9_of m a0 d0 c x main_v11 (by decide)

end Cert.Kernel.Run

end
-- ==== Proof.K.Claims.lean ====
import proofs.«411147_j8194797600876_3_alg».proof.Proof.K.RunR
import proofs.«411147_j8194797600876_3_alg».proof.Proof.K.Inst
import proofs.«411147_j8194797600876_3_alg».proof.Proof.K.Read
import proofs.«411147_j8194797600876_3_alg».proof.Proof.K.R0
import proofs.«411147_j8194797600876_3_alg».proof.Proof.K.R3

set_option maxRecDepth 16384

noncomputable section

namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]

local notation "𝕄" => MT nD τ sig Unit (Elt F) ℕ (Pipeline.UD sig nD τ) ℕ

variable (m : (ℓ : Loc nD τ sig) → Buf (Elt F) ℓ)

/-- The first region's proof data at the launch memory's table. -/
abbrev d0c : (c : Dev nD) → Dat τ (Elt F) Unit ℕ (Pipeline.UD sig nD τ) ℕ (cfg0 (a0 m)) c :=
  fun c => R0.dat0 (W3 m) (a0 m) (hchk m) c

theorem recorded_eq0 (V : (c : Dev nD) → (b : Ref sig .tc) → Buf (Elt F) ((c : Thread nD τ).loc b))
    (a : (pcfg0 (F := F)).Adm) (hchk : k0_chk1 (R0.tok0 a)) (c : Dev nD) (t : Fin ((cfg0 a).N + 1)) :
    (R0.dat0 V a hchk c).recorded t = Set.univ := rfl

theorem fgt3_true : fgt3 true = fun w => decide (w = 3) := by
  funext w; unfold fgt3
  first | exact Bool.true_and _ | exact Bool.and_true _ | rfl | simp
theorem fgt3_false : fgt3 false = fun _ => false := by
  funext w; unfold fgt3
  first | exact Bool.false_and _ | exact Bool.and_false _ | rfl | simp

/-- The last region's body obligation with the result's window forgotten, -/
theorem hb3_fgt (c : Dev nD) :
    ((R3.dat3 (W6 m (a0 m) (d0c m)) c).toRForget (fgt3 true)).BodyObligation (defs₀ (F := F)) 𝒱₀ () Set.univ := by
  rw [fgt3_true]
  exact (R3.body_obligation3_fgt (W6 m (a0 m) (d0c m)) c).toRForget

/-- and with every window stated, given that the contraction reads the weight block by rows. -/
theorem hb3_loc (hloc : R3.RowLocal3 F) (c : Dev nD) :
    ((R3.dat3 (W6 m (a0 m) (d0c m)) c).toRForget (fgt3 false)).BodyObligation (defs₀ (F := F)) 𝒱₀ () Set.univ := by
  rw [fgt3_false, Dat.toRForget_none]
  exact (R3.body_obligation3 (W6 m (a0 m) (d0c m)) hloc c).toR

/-- The run at the launch memory's table: the final memory holds the last valuation at some result `x` of the last region. -/
theorem run_at (fg : Bool)
    (hb3 : ∀ c, ((R3.dat3 (W6 m (a0 m) (d0c m)) c).toRForget (fgt3 fg)).BodyObligation (defs₀ (F := F)) 𝒱₀ () Set.univ)
    (ρ : Dev nD → PrngReg) :
    θ_run defs (onTc (τ := τ) (main (F := F))) ⟨m, fun _ => 0, ρ⟩ (fun r => ∀ c : Dev nD, ∃ x, P3 m fg (a0 m) (d0c m) c x ∧
      ∀ b ∈ Pipeline.ucRefs τ sig, r.2.mem ((c : Thread nD τ).1, b) = U9 m (a0 m) (d0c m) c x b) :=
  run_main m fg (a0 m) (d0c m)
    (fun c w => R0.A_eq0 (W3 m) (a0 m) (hchk m) c w)
    (fun c t => R0.Φ_eq0 (W3 m) (a0 m) (hchk m) c t)
    (fun c t => R0.owed_eq0 (W3 m) (a0 m) (hchk m) c t)
    (fun c t => recorded_eq0 (W3 m) (a0 m) (hchk m) c t)
    (fun c => R0.q_eq0 (W3 m) (a0 m) (hchk m) c)
    (fun c => R0.body_obligation0 (W3 m) (a0 m) (hchk m) c)
    (htbl m) hb3 ρ

/-- The program terminates without fault and every argument ends holding its launch contents; the last region's
    result is not read. -/
theorem frame (ρ : Dev nD → PrngReg) :
    θ_run defs (onTc (τ := τ) (main (F := F))) ⟨m, fun _ => 0, ρ⟩ (fun r => ∀ c : Dev nD, Kept m r.2.mem c) :=
  (θ_run defs _ _).mono (fun r h c => by
    obtain ⟨x, -, hx⟩ := h c
    exact kept m _ _ r.2.mem c x hx)
    (run_at m true (hb3_fgt m) ρ)

end Cert.Kernel.Run

end
-- ==== Proof.KI.R1.lean ====
import proofs.«411147_j8194797600876_3_alg».proof.Proof.Gen.KernelIdeal.Launch
import proofs.«411147_j8194797600876_3_alg».proof.Proof.Gen.KernelIdeal.Skeleton
import proofs.«411147_j8194797600876_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rRow : Rect S1x1024 := Rect.unit (s := S1x1024) ![0, 0] S1x1024.size inb_S1x1024_S1x1024_0_0
abbrev rMat : Rect S1024x1024 := Rect.unit (s := S1024x1024) ![0, 0] S1024x1024.size inb_S1024x1024_S1024x1024_0_0

def out1_5 (x a : Vec F S1x1024 .f32) (w0 w1 : Vec F S1024x1024 .f32) (b : Vec F S1x1024 .f32) : Vec F S1x1024 .f32 :=
  View.canon [⟨rRow, k1_pay1 (View.ld x rRow) (View.ld w0 rMat) (View.ld a rRow) (View.ld w1 rMat) (View.ld b rRow)⟩]

def q1 (w : Fin cfg1.W) : PosShare TreeShare :=
  if w = 2 then fullShare.left else if w = 3 then fullShare.right else fullShare

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q1
  owed _ := 0

-- At every point an input window's `before` is the window's block of the entry contents.
theorem before1_0 (c t d) : (dat1 V c).before 0 t d = iblk1 V c 0 t := (dat1 V c).before_fetched 0 t (fetch1_0 t) d
theorem before1_1 (c t d) : (dat1 V c).before 1 t d = iblk1 V c 1 t := (dat1 V c).before_fetched 1 t (fetch1_1 t) d
theorem before1_2 (c t d) : (dat1 V c).before 2 t d = iblk1 V c 2 t := (dat1 V c).before_fetched 2 t (fetch1_2 t) d
theorem before1_3 (c t d) : (dat1 V c).before 3 t d = iblk1 V c 3 t := (dat1 V c).before_fetched 3 t (fetch1_3 t) d
theorem before1_4 (c t d) : (dat1 V c).before 4 t d = iblk1 V c 4 t := (dat1 V c).before_fetched 4 t (fetch1_4 t) d

-- The body reads its five inputs and overwrites the whole output with one payload of them.
theorem body_obligation1 (c : Dev nD) : BodyObligation (dat1 (F := F) V c) (defs₀ (F := F)) Variants.none () Set.univ := fun t => by
  rw [bigSep_W1, bigSep_W1]
  show _ ⊢ wp frame _ _ (bodyAt1 t) _
  unfold bodyAt1
  simp only [before1_0, before1_1, before1_2, before1_3, before1_4, cc1__comb_kernel_eq_skeleton]
  dsimp only [dat1]
  unfold cc1__comb_kernel_skel owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  sl_exec
  sl_step
  iframe HΦ
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  iexists _; isplitr
  swap; · iexact H5
  ipureintro
  rw [← h0, ← h1, ← h2, ← h3, ← h4]
  exact View.read_writes_eq_canon _ _ _ fun y => View.cover_of_tiled _ S1x1024.size (by rfl) y

theorem ld_unit_zero {S : Shape} {e : EltTy} {Val : EltTy → Type} (X : S.Idx → Val e) {off : Fin S.rank → Nat}
    (h : off = fun _ => 0) (inb : ∀ a, off a + S.size a ≤ S.size a) : View.ld X (Rect.unit off S.size inb) = X :=
  View.ld_unit_zero h inb X

theorem canon_unit_zero {S : Shape} {e : EltTy} {Val : EltTy → Type} [∀ e, Nonempty (Val e)] {off : Fin S.rank → Nat}
    (h : off = fun _ => 0) (inb : ∀ a, off a + S.size a ≤ S.size a) (p : S.Idx → Val e) :
    View.canon [(⟨Rect.unit off S.size inb, p⟩ : View.Piece Val S e)] = p :=
  View.canon_unit_zero h inb p

def wLo1 (c : Dev nD) : Vec F S1024x1024 .f32 :=
  fun y => V c main_arg6 (ValueIdx.ix2 (n0 := 1024) (n1 := 2048) ⟨(y 0).val, (y 0).isLt⟩ ⟨(y 1).val, Nat.lt_of_lt_of_le (y 1).isLt (by decide)⟩)
def wHi1 (c : Dev nD) : Vec F S1024x1024 .f32 :=
  fun y => V c main_arg6 (ValueIdx.ix2 (n0 := 1024) (n1 := 2048) ⟨(y 0).val, (y 0).isLt⟩ ⟨1024 + (y 1).val, Nat.add_lt_add_left (y 1).isLt 1024⟩)

-- The row windows' blocks are their whole arrays; the two weight windows' blocks are the column halves.
theorem iblk1_eq (c : Dev nD) (t : Fin cfg1.N) : iblk1 V c 0 t = V c main_v7_0 ∧ iblk1 V c 1 t = V c main_v7_2
    ∧ iblk1 V c 4 t = V c main_v3 ∧ iblk1 V c 2 t = wLo1 V c ∧ iblk1 V c 3 t = wHi1 V c := by
  refine ⟨?_, ?_, ?_, ?_, ?_⟩
  iterate 3 exact Memref.read_access_unit_zero (Elt F) _ (funext fun a => by fin_cases a <;> rfl) _ _
  all_goals
    funext y
    unfold iblk1
    rw [View.read_apply]
    refine congrArg (V c main_arg6) (Shape.idx_ext₂ ?_ ?_)
  · show 0 * 1024 + 1 * (y 0).val = (y 0).val; omega
  · show 0 * 1024 + 1 * (y 1).val = (y 1).val; omega
  · show 0 * 1024 + 1 * (y 0).val = (y 0).val; omega
  · show 1 * 1024 + 1 * (y 1).val = 1024 + (y 1).val; omega

-- The grid has one point and the output's block is its whole array, so the array ends as the payload at the entry contents.
theorem final1_V (c : Dev nD) : (dat1 V c).arrAt 5 cfg1.N
    = k1_pay1 (V c main_v7_0) (wLo1 V c) (V c main_v7_2) (wHi1 V c) (V c main_v3) := by
  obtain ⟨h0, h1, h4, h2, h3⟩ := iblk1_eq V c t1_0
  have z : (![0, 0] : Fin 2 → Nat) = fun _ => 0 := funext fun a => by fin_cases a <;> rfl
  rw [show cfg1.N = t1_0.val + 1 from rfl, (dat1 V c).arrAt_succ 5 t1_0, if_pos (flush1_5 _)]
  dsimp only [Dat.flushed, dat1]
  refine (Memref.write_access_unit_zero_univ (Elt F) main_v8 (funext fun a => by fin_cases a <;> rfl) _ _ _).trans ?_
  show out1_5 _ _ _ _ _ = _
  unfold out1_5
  simp only [h0, h1, h2, h3, h4, ld_unit_zero (S := S1x1024) _ z, ld_unit_zero (S := S1024x1024) _ z]
  exact canon_unit_zero (S := S1x1024) z _ _

-- The six array holdings are the five buffers, the weight array's share dealt by halves to windows 2 and 3.
theorem arrays1 (c : Dev nD) (V' : (b : Ref sig .tc) → Buf (Elt F) ((c : Thread nD τ).loc b)) :
    ((dat1 V c).arrays fun w => V' (Pipeline.arrRef spec1 w) : sProp 𝕄) ⊣⊢ Pipeline.arrBufs spec1 c V' := by
  unfold Dat.arrays Pipeline.arrBufs
  rw [bigSep_W1, BI.bigSep_eq_bigSepL_of_eq [main_v7_0, main_v7_2, main_arg6, main_v3, main_v8] (by decide) (by decide)]
  simp only [View.set_whole]
  exact sep_congr_right (sep_congr_right (sep_assoc.symm.trans
    (sep_congr_left (pointsTo_share (PosShare.mem_left_op_right fullShare)).symm)))

theorem entry_arrays1 (c : Dev nD) :
    (Pipeline.arrBufs spec1 c (V c) : sProp 𝕄) ⊢ (dat1 V c).arrays ((dat1 V c).arrAt · 0) :=
  (arrays1 V c (V c)).2

theorem exit_arrays1 (c : Dev nD) (V' : (b : Ref sig .tc) → Buf (Elt F) ((c : Thread nD τ).loc b))
    (hF : ∀ w, (dat1 V c).arrAt w cfg1.N = V' (Pipeline.arrRef spec1 w)) :
    (dat1 V c).arrays ((dat1 V c).arrAt · cfg1.N) ⊢ (Pipeline.arrBufs spec1 c V' : sProp 𝕄) := by
  rw [funext hF]; exact (arrays1 V c V').1

end Cert.KernelIdeal.R1

end
-- ==== Proof.KI.R2.lean ====
import proofs.«411147_j8194797600876_3_alg».proof.Proof.Gen.KernelIdeal.Launch
import proofs.«411147_j8194797600876_3_alg».proof.Proof.Gen.KernelIdeal.Skeleton
import proofs.«411147_j8194797600876_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

noncomputable section

namespace Cert.KernelIdeal.R2

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rRow : Rect S1x1024 := Rect.unit (s := S1x1024) ![0, 0] S1x1024.size inb_S1x1024_S1x1024_0_0
abbrev rMat : Rect S3072x1024 := Rect.unit (s := S3072x1024) ![0, 0] S3072x1024.size inb_S3072x1024_S3072x1024_0_0

theorem zeros2 : (![0, 0] : Fin 2 → Nat) = fun _ => 0 := funext fun a => by fin_cases a <;> rfl

/-- The new hidden row as a function of the six inputs' contents, in window order. -/
def out2_6 (x0 x1 : Vec F S1x1024 .f32) (x2 x3 : Vec F S3072x1024 .f32) (x4 x5 : Vec F S1x3072 .f32) : Vec F S1x1024 .f32 :=
  k2_pay1 x0 x1 x2 x4 x3 x5

/-- The body leaves its six inputs as they were and the seventh memref at `out2_6` of their contents. -/
theorem sound_kernel2 {c : Dev nD} (i : grid2.Coords) {a1 a2 a7 : Memref sig .tc .vmem S1x1024 .f32}
    {a3 a4 : Memref sig .tc .vmem S3072x1024 .f32} {a5 a6 : Memref sig .tc .vmem S1x3072 .f32}
    (h1 : a1.IsWhole) (h2 : a2.IsWhole) (h3 : a3.IsWhole) (h4 : a4.IsWhole) (h5 : a5.IsWhole) (h6 : a6.IsWhole) (h7 : a7.IsWhole)
    {x0 x1 d : Vec F S1x1024 .f32} {x2 x3 : Vec F S3072x1024 .f32} {x4 x5 : Vec F S1x3072 .f32} {K : PUnit → sProp 𝕄} :
    owns c.tc a1 fullShare x0 ⊢ owns c.tc a2 fullShare x1 -∗ owns c.tc a3 fullShare x2 -∗ owns c.tc a4 fullShare x3
      -∗ owns c.tc a5 fullShare x4 -∗ owns c.tc a6 fullShare x5 -∗ owns c.tc a7 fullShare d
      -∗ (owns c.tc a1 fullShare x0 ∗ owns c.tc a2 fullShare x1 ∗ owns c.tc a3 fullShare x2 ∗ owns c.tc a4 fullShare x3
          ∗ owns c.tc a5 fullShare x4 ∗ owns c.tc a6 fullShare x5 ∗ owns c.tc a7 fullShare (out2_6 x0 x1 x2 x3 x4 x5) -∗ K ⟨⟩)
      -∗ wp frame (wpE (defs₀ (F := F)) Variants.none c none) Set.univ (cc2__gru_kernel i a1 h1 a2 h2 a3 h3 a4 h4 a5 h5 a6 h6 a7 h7) K := by
  unfold owns
  iintro ⟨%f0, %e0, H0⟩ ⟨%f1, %e1, H1⟩ ⟨%f2, %e2, H2⟩ ⟨%f3, %e3, H3⟩ ⟨%f4, %e4, H4⟩ ⟨%f5, %e5, H5⟩ ⟨%f6, -, H6⟩ Hk
  subst e0 e1 e2 e3 e4 e5
  sl_unfold [cc2__gru_kernel]
  sl_exec
  sl_step
  iapply Hk
  isplitl [H0]; · iexists f0; isplitr; ipureintro; rfl; iexact H0
  isplitl [H1]; · iexists f1; isplitr; ipureintro; rfl; iexact H1
  isplitl [H2]; · iexists f2; isplitr; ipureintro; rfl; iexact H2
  isplitl [H3]; · iexists f3; isplitr; ipureintro; rfl; iexact H3
  isplitl [H4]; · iexists f4; isplitr; ipureintro; rfl; iexact H4
  isplitl [H5]; · iexists f5; isplitr; ipureintro; rfl; iexact H5
  iexists _; isplitr; swap; iexact H6; ipureintro
  rw [View.read_writes_eq_canon _ _ _ fun y => ⟨_, List.mem_singleton_self _, View.mem_set_unit_zero zeros2 inb_S1x1024_S1x1024_0_0 y⟩,
    View.canon_unit_zero zeros2]
  unfold out2_6
  congr 1 <;> exact View.ld_unit_zero zeros2 _ _

/-- The proof data: the arrays as found, every input left at its block, the output at `out2_6` of the six input blocks. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem body_obligation2 (c : Dev nD) : BodyObligation (dat2 (F := F) V c) (defs₀ (F := F)) Variants.none () Set.univ := fun t => by
  rw [bigSep_W2, bigSep_W2]
  simp only [Dat.before_fetched _ _ _ (fetch2_0 t), Dat.before_fetched _ _ _ (fetch2_1 t), Dat.before_fetched _ _ _ (fetch2_2 t),
    Dat.before_fetched _ _ _ (fetch2_3 t), Dat.before_fetched _ _ _ (fetch2_4 t), Dat.before_fetched _ _ _ (fetch2_5 t)]
  dsimp only [dat2]
  iintro ⟨HΦ, Ho, ⟨%_, H0⟩, ⟨%_, H1⟩, ⟨%_, H2⟩, ⟨%_, H3⟩, ⟨%_, H4⟩, ⟨%_, H5⟩, ⟨%_, H6⟩⟩
  iapply sound_kernel2 (grid2.coords t) (hstage2_0 _) (hstage2_1 _) (hstage2_2 _) (hstage2_3 _) (hstage2_4 _) (hstage2_5 _) (hstage2_6 _) $$ H0 H1 H2 H3 H4 H5 H6
  iintro H
  iframe HΦ
  isplitl [Ho] <;> [iexact Ho; iexact H]

/-- Each window's one block is its whole array, so the output array ends at the payload of the six input arrays. -/
theorem final2 (c : Dev nD) :
    (dat2 V c).arrAt 6 cfg2.N
      = k2_pay1 (V c main_v8) (V c main_v0) (V c main_arg8) (V c main_v4) (V c main_arg9) (V c main_v5) := by
  rw [show cfg2.N = t2_0.val + 1 from rfl, (dat2 V c).arrAt_succ 6 t2_0, if_pos (flush2_6 _)]
  refine Eq.trans (Memref.write_access_unit_zero_univ (Elt F) main_v9 (funext fun a => by fin_cases a <;> decide) _ _ _) ?_
  change k2_pay1 _ _ _ _ _ _ = _
  congr 1 <;> exact Memref.read_access_unit_zero (Elt F) _ (funext fun a => by fin_cases a <;> decide) _ _

theorem final2_in (c : Dev nD) (w : Fin cfg2.W) (hw : w ≠ 6) : (dat2 V c).arrAt w cfg2.N = V c (Pipeline.arrRef spec2 w) :=
  (dat2 V c).arrAt_in w (by revert w; decide) _

end Cert.KernelIdeal.R2

end
-- ==== Proof.KI.Fold.lean ====
/- The buffers' contents between the program's items: the launch contents after the opening host stretches, then each
   region's results written over them in turn, then the two closing host stretches. -/
import proofs.«411147_j8194797600876_3_alg».proof.Proof.Gen.KernelIdeal.Regions
import proofs.«411147_j8194797600876_3_alg».proof.Proof.Gen.KernelIdeal.Skeleton
import proofs.«411147_j8194797600876_3_alg».proof.Proof.Gen.KernelIdeal.Points
import proofs.«411147_j8194797600876_3_alg».proof.Proof.KI.R1
import proofs.«411147_j8194797600876_3_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]

local notation "𝕄" => MT nD τ sig Unit (Elt F) ℕ (Pipeline.UD sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev E (c : Dev nD) : sProp 𝕄 := iprop((∃ r, prngReg c r) ∗ ∃ W, owes (c : Thread nD τ) (0 : CellTallies nD τ sig Unit) W)

abbrev W3 : (c : Dev nD) → (b : Ref sig .tc) → Buf (Elt F) ((c : Thread nD τ).loc b) := fun c b => V3 m c b

section Fold
variable (a0 : (pcfg0 (F := F)).Adm) (d0 : (c : Dev nD) → Dat τ (Elt F) Unit ℕ (Pipeline.UD sig nD τ) ℕ (cfg0 a0) c)

def x70 (c : Dev nD) : Buf (Elt F) ((c : Thread nD τ).loc main_v7_0) := (d0 c).arrAt 5 (cfg0 a0).N
def x71 (c : Dev nD) : Buf (Elt F) ((c : Thread nD τ).loc main_v7_1) := (d0 c).arrAt 6 (cfg0 a0).N
def x72 (c : Dev nD) : Buf (Elt F) ((c : Thread nD τ).loc main_v7_2) := (d0 c).arrAt 7 (cfg0 a0).N
def U4 (c : Dev nD) : Valuation τ sig (Elt F) :=
  Function.update (Function.update (Function.update (V3 m c) main_v7_0 (x70 a0 d0 c)) main_v7_1 (x71 a0 d0 c)) main_v7_2 (x72 a0 d0 c)
abbrev W4 : (c : Dev nD) → (b : Ref sig .tc) → Buf (Elt F) ((c : Thread nD τ).loc b) := fun c b => U4 m a0 d0 c b
def x8 (c : Dev nD) : Buf (Elt F) ((c : Thread nD τ).loc main_v8) := (R1.dat1 (W4 m a0 d0) c).arrAt 5 cfg1.N
def U5 (c : Dev nD) : Valuation τ sig (Elt F) :=
  Function.update (U4 m a0 d0 c) main_v8 (x8 m a0 d0 c)
abbrev W5 : (c : Dev nD) → (b : Ref sig .tc) → Buf (Elt F) ((c : Thread nD τ).loc b) := fun c b => U5 m a0 d0 c b
def x9 (c : Dev nD) : Buf (Elt F) ((c : Thread nD τ).loc main_v9) := (R2.dat2 (W5 m a0 d0) c).arrAt 6 cfg2.N
def U6 (c : Dev nD) : Valuation τ sig (Elt F) :=
  Function.update (U5 m a0 d0 c) main_v9 (x9 m a0 d0 c)
abbrev W6 : (c : Dev nD) → (b : Ref sig .tc) → Buf (Elt F) ((c : Thread nD τ).loc b) := fun c b => U6 m a0 d0 c b
def U7 (c : Dev nD) (x : Buf (Elt F) ((c : Thread nD τ).loc main_v10)) : Valuation τ sig (Elt F) :=
  Function.update (U6 m a0 d0 c) main_v10 x
def U8 (c : Dev nD) (x : Buf (Elt F) ((c : Thread nD τ).loc main_v10)) : Valuation τ sig (Elt F) := StableHlo.after hostOps4 (U7 m a0 d0 c x)
def U9 (c : Dev nD) (x : Buf (Elt F) ((c : Thread nD τ).loc main_v10)) : Valuation τ sig (Elt F) := StableHlo.after hostOps4_1 (U8 m a0 d0 c x)

theorem U4_of (c : Dev nD) (r : Ref sig .tc) (h : r ∉ ([main_v7_0, main_v7_1, main_v7_2] : List (Ref sig .tc))) : U4 m a0 d0 c r = V3 m c r := by
  have h0 : (Proc.devRef .tc r : DevRef τ sig) ≠ Proc.devRef .tc main_v7_0 := StableHlo.devRef_ne_of_ne (List.ne_of_not_mem_cons h)
  have h1 : (Proc.devRef .tc r : DevRef τ sig) ≠ Proc.devRef .tc main_v7_1 := StableHlo.devRef_ne_of_ne (List.ne_of_not_mem_cons (List.not_mem_of_not_mem_cons h))
  have h2 : (Proc.devRef .tc r : DevRef τ sig) ≠ Proc.devRef .tc main_v7_2 := StableHlo.devRef_ne_of_ne (List.ne_of_not_mem_cons (List.not_mem_of_not_mem_cons (List.not_mem_of_not_mem_cons h)))
  unfold U4
  rw [Function.update_of_ne h2, Function.update_of_ne h1, Function.update_of_ne h0]
theorem U5_of (c : Dev nD) (r : Ref sig .tc) (h : r ≠ main_v8) : U5 m a0 d0 c r = U4 m a0 d0 c r := by
  unfold U5; rw [Function.update_of_ne (StableHlo.devRef_ne_of_ne h : (Proc.devRef .tc r : DevRef τ sig) ≠ Proc.devRef .tc main_v8)]
theorem U6_of (c : Dev nD) (r : Ref sig .tc) (h : r ≠ main_v9) : U6 m a0 d0 c r = U5 m a0 d0 c r := by
  unfold U6; rw [Function.update_of_ne (StableHlo.devRef_ne_of_ne h : (Proc.devRef .tc r : DevRef τ sig) ≠ Proc.devRef .tc main_v9)]
theorem U7_of (c : Dev nD) (x) (r : Ref sig .tc) (h : r ≠ main_v10) : U7 m a0 d0 c x r = U6 m a0 d0 c r := by
  unfold U7; rw [Function.update_of_ne (StableHlo.devRef_ne_of_ne h : (Proc.devRef .tc r : DevRef τ sig) ≠ Proc.devRef .tc main_v10)]
theorem U6_v9 (c : Dev nD) : U6 m a0 d0 c main_v9 = x9 m a0 d0 c := by
  unfold U6; rw [Function.update_self]
theorem U5_v8 (c : Dev nD) : U5 m a0 d0 c main_v8 = x8 m a0 d0 c := by
  unfold U5; rw [Function.update_self]
theorem U7_v10 (c : Dev nD) (x) : U7 m a0 d0 c x main_v10 = x := by
  unfold U7; rw [Function.update_self]

end Fold

section Fold2
variable (a0 : (pcfg0 (F := F)).Adm) (d0 : (c : Dev nD) → Dat τ (Elt F) Unit ℕ (Pipeline.UD sig nD τ) ℕ (cfg0 a0) c)
theorem U4_v7_0 (c : Dev nD) : U4 m a0 d0 c main_v7_0 = x70 a0 d0 c := by
  unfold U4
  rw [Function.update_of_ne (StableHlo.devRef_ne_of_ne (by decide) : (Proc.devRef .tc main_v7_0 : DevRef τ sig) ≠ Proc.devRef .tc main_v7_2),
    Function.update_of_ne (StableHlo.devRef_ne_of_ne (by decide) : (Proc.devRef .tc main_v7_0 : DevRef τ sig) ≠ Proc.devRef .tc main_v7_1), Function.update_self]
theorem U4_v7_1 (c : Dev nD) : U4 m a0 d0 c main_v7_1 = x71 a0 d0 c := by
  unfold U4
  rw [Function.update_of_ne (StableHlo.devRef_ne_of_ne (by decide) : (Proc.devRef .tc main_v7_1 : DevRef τ sig) ≠ Proc.devRef .tc main_v7_2), Function.update_self]
theorem U4_v7_2 (c : Dev nD) : U4 m a0 d0 c main_v7_2 = x72 a0 d0 c := by
  unfold U4; rw [Function.update_self]
end Fold2

end Cert.KernelIdeal.Run

end
-- ==== Proof.KI.R3.lean ====
import proofs.«411147_j8194797600876_3_alg».proof.Proof.Gen.KernelIdeal.Launch
import proofs.«411147_j8194797600876_3_alg».proof.Proof.Gen.KernelIdeal.Skeleton
import proofs.«411147_j8194797600876_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic
import Idealize.ShloMosaic.Lib.Pipeline.TableIdle

set_option maxRecDepth 16384

noncomputable section

namespace Cert.KernelIdeal.R3

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem zeros2 : (![0, 0] : Fin 2 → Nat) = fun _ => 0 := funext fun a => by fin_cases a <;> rfl

def out3_3 (x0 : Vec F S1x1024 .f32) (x1 : Vec F S2048x1024 .f32) (x2 : Vec F S1x2048 .f32) : Vec F S1x2048 .f32 :=
  k3_pay1 x0 x1 x2

set_option maxHeartbeats 1000000 in
theorem sound_kernel3 (c : Dev nD) (E : Set ℕ) (i : grid3.Coords)
    (arg1 : Memref sig .tc .vmem S1x1024 .f32) (harg1 : arg1.IsWhole)
    (arg2 : Memref sig .tc .vmem S2048x1024 .f32) (harg2 : arg2.IsWhole)
    (arg3 : Memref sig .tc .vmem S1x2048 .f32) (harg3 : arg3.IsWhole)
    (arg4 : Memref sig .tc .vmem S1x2048 .f32) (harg4 : arg4.IsWhole)
    (x0 : Vec F S1x1024 .f32) (x1 : Vec F S2048x1024 .f32) (x2 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out3_3 x0 x1 x2)) -∗ K ⟨⟩))
      ⊢ wp frame (wpE (defs₀ (F := F)) Variants.none c none) E (cc3__outproj_kernel i arg1 harg1 arg2 harg2 arg3 harg3 arg4 harg4) K := by
  simp only [cc3__outproj_kernel_eq_skeleton, owns_eq_rep]; unfold cc3__outproj_kernel_skel
  iintro ⟨H0, H1, H2, ⟨%d, H3⟩, Hk⟩
  sl_exec
  sl_step
  iapply Hk
  iframe H0 H1 H2
  rw [← owns_eq_rep]; unfold owns
  iexists _; isplitr
  swap; · iexact H3
  ipureintro
  exact (View.read_writes_eq_canon _ _ _ fun y => ⟨_, List.mem_singleton_self _, View.mem_set_unit_zero zeros2 inb_S1x2048_S1x2048_0_0 y⟩).trans
    ((View.canon_unit_zero zeros2 _ _).trans (by
      show k3_pay1 _ _ _ = k3_pay1 _ _ _
      congr 1 <;> exact (View.ld_unit_zero zeros2 _ _).trans (View.read_rep _ _)))

def RowLocal3 (F : FTy → Type) [FloatOps F] : Prop :=
  ∀ (l : FVec F S1x1024 .bf16) (r r' : FVec F S2048x1024 .bf16) (acc : FVec F S1x2048 .f32) (j : S1x2048.Idx),
    (∀ y : S2048x1024.Idx, (y 0).val = (j 1).val → r y = r' y) →
      matmul dot_S1x1024_S2048x1024_S1x2048_1_1_0_0_n_n none l r acc j
        = matmul dot_S1x1024_S2048x1024_S1x2048_1_1_0_0_n_n none l r' acc j

-- Exactly, the entry is the accumulator plus the sum over `k` of `x[0, k] · W[j, k]`.
theorem rowLocal3_ideal : RowLocal3 Ideal := by
  intro l r r' acc j h
  show FloatOps.matmul _ none l r acc j = FloatOps.matmul _ none l r' acc j
  rw [Ideal.matmul_apply, Ideal.matmul_apply]
  refine congrArg (acc j + ·) (Finset.sum_congr rfl fun k _ => ?_)
  rw [h _ rfl]

-- Column `j` of `x · Wᵀ + b` depends on `b` at `j` and, the contraction being by rows, on row `j` of `W` only.
theorem cut_out3_3 (hloc : RowLocal3 F) (i : grid3.Coords) (x0 : Vec F S1x1024 .f32) {x1 x1' : Vec F S2048x1024 .f32}
    {x2 x2' : Vec F S1x2048 .f32} (h1 : win3_1.cut i x1 = win3_1.cut i x1') (h2 : win3_2.cut i x2 = win3_2.cut i x2') :
    win3_3.cut i (out3_3 x0 x1 x2) = win3_3.cut i (out3_3 x0 x1' x2') := by
  funext j
  show out3_3 x0 x1 x2 (win3_3.xinj i j) = out3_3 x0 x1' x2' (win3_3.xinj i j)
  unfold out3_3 k3_pay1
  simp only [shapeCast_self]
  refine congrArg₂ FloatOps.addf (hloc _ _ _ _ _ fun y hy => ?_) (congrFun h2 j)
  have hy' : ∀ a, (y a).val < win3_1.xsize i a := fun
    | ⟨0, _⟩ => lt_of_eq_of_lt hy (j 1).isLt
    | ⟨1, _⟩ => (y 1).isLt
  exact congrArg (FloatOps.truncf .bf16 _) (congrFun h1 fun a => ⟨(y a).val, hy' a⟩)

abbrev z3 : Elt F .f32 := Scalar.ofBits .f32 0#32

def blk3_1 (c : Dev nD) (t : Fin cfg3.N) : S2048x1024.Idx → Elt F .f32 :=
  win3_1.fill (grid3.coords t) (fun _ => z3) (iblk3 V c 1 t)
def blk3_2 (c : Dev nD) (t : Fin cfg3.N) : S1x2048.Idx → Elt F .f32 :=
  win3_2.fill (grid3.coords t) (fun _ => z3) (iblk3 V c 2 t)

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => blk3_1 V c t
    | ⟨2, _⟩ => blk3_2 V c t
    | ⟨3, _⟩ => out3_3 (iblk3 V c 0 t) (blk3_1 V c t) (blk3_2 V c t)
  Φ _ := Pipeline.ΦA spec3 c
  q _ := fullShare
  owed _ := 0

theorem after3_3 (c : Dev nD) (t : Fin cfg3.N) :
    (dat3 V c).after 3 t = out3_3 (iblk3 V c 0 t) (blk3_1 V c t) (blk3_2 V c t) := by dsimp only [dat3]

theorem keep3 (c : Dev nD) (t : Fin cfg3.N) : ∀ w : Fin cfg3.W, (cfg3.win w).isOut = false →
    (cfg3.win w).cut (cfg3.grid.coords t) ((dat3 V c).after w t) = (dat3 V c).blockOf w t
  | ⟨0, _⟩, _ => rfl
  | ⟨1, _⟩, _ => win3_1.cut_fill _ _ _
  | ⟨2, _⟩, _ => win3_2.cut_fill _ _ _
  | ⟨3, _⟩, h => nomatch h

theorem before3 (c : Dev nD) (t : Fin cfg3.N) : ∀ (w : Fin cfg3.W) (_ : (cfg3.win w).isOut = false) (d),
    (dat3 V c).before w t d = (dat3 V c).fetched w t d
  | ⟨0, _⟩, hw, d => (dat3 V c).before_in_eq_fetched _ hw (fun _ => rfl) (fun _ _ _ => rfl) (fun t => keep3 V c t _ hw) t d
  | ⟨1, _⟩, _, d => (dat3 V c).before_fetched _ t (fetch3_1 t) d
  | ⟨2, _⟩, _, d => (dat3 V c).before_fetched _ t (fetch3_2 t) d
  | ⟨3, _⟩, h, _ => nomatch h

theorem cut_before3 (c : Dev nD) (t : Fin cfg3.N) (w : Fin cfg3.W) (hw : (cfg3.win w).isOut = false) (d) :
    (cfg3.win w).cut (cfg3.grid.coords t) ((dat3 V c).before w t d)
      = (cfg3.win w).cut (cfg3.grid.coords t) ((dat3 V c).after w t) := by
  rw [before3 V c t w hw, keep3 V c t w hw]; exact (dat3 V c).cut_fetched w t d

-- If `X` and `Y` agree on a part, `X` is `Y` there and something elsewhere.
theorem owns_loose {G : Pipeline.Grid} (w : Window sig G) (i : G.Coords) (c : Dev nD) {sp : Space}
    (m : Memref sig .tc sp w.block w.elt) {X Y : w.block.Idx → Elt F w.elt} (h : w.cut i X = w.cut i Y) :
    owns (c : Thread nD τ) m fullShare X ⊢ (∃ d, owns (c : Thread nD τ) m fullShare (w.fill i d (w.cut i Y)) : sProp 𝕄) := by
  iintro H; iexists X; rw [w.fill_congr_cut i h]; iexact H

theorem sound_body3 (c : Dev nD) (t : Fin cfg3.N) (P Q : sProp 𝕄)
    (hP : P ⊢ ∃ X, owns (c : Thread nD τ) (st3_3 t) fullShare X)
    (hQ : ∀ x1 x2, win3_1.cut (grid3.coords t) x1 = win3_1.cut (grid3.coords t) ((dat3 V c).after 1 t) →
      win3_2.cut (grid3.coords t) x2 = win3_2.cut (grid3.coords t) ((dat3 V c).after 2 t) →
      owns (c : Thread nD τ) (st3_3 t) fullShare (out3_3 ((dat3 V c).after 0 t) x1 x2) ⊢ Q) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)) ∗ P)
    ⊢ wp frame (wpE (defs₀ (F := F)) Variants.none c none) Set.univ (bodyAt3 t) fun _ =>
      iprop((dat3 V c).Φ t.castSucc ∗ (dat3 V c).owesAt () t.castSucc
        ∗ owns (c : Thread nD τ) (st3_0 t) fullShare ((dat3 V c).after 0 t)
        ∗ (∃ d, owns (c : Thread nD τ) (st3_1 t) fullShare
            ((cfg3.win 1).fill (cfg3.grid.coords t) d ((cfg3.win 1).cut (cfg3.grid.coords t) ((dat3 V c).after 1 t))))
        ∗ (∃ d, owns (c : Thread nD τ) (st3_2 t) fullShare
            ((cfg3.win 2).fill (cfg3.grid.coords t) d ((cfg3.win 2).cut (cfg3.grid.coords t) ((dat3 V c).after 2 t))))
        ∗ Q) := by
  iintro ⟨HΦ, Ho, ⟨%d0, H0⟩, ⟨%d1, H1⟩, ⟨%d2, H2⟩, H3⟩
  have e1 := cut_before3 V c t 1 rfl d1
  have e2 := cut_before3 V c t 2 rfl d2
  rw [show (dat3 V c).before 0 t d0 = (dat3 V c).after 0 t from cut_before3 V c t 0 rfl d0]
  iapply (sound_kernel3 c Set.univ (grid3.coords t) _ _ _ _ _ _ _ _ ((dat3 V c).after 0 t)
    ((dat3 V c).before 1 t d1) ((dat3 V c).before 2 t d2) _)
  iframe H0 H1 H2
  isplitl [H3]; · iapply hP $$ H3
  iintro ⟨H0, H1, H2, H3⟩
  iframe HΦ Ho H0
  isplitl [H1]; · iapply (owns_loose _ _ c _ e1) $$ H1
  isplitl [H2]; · iapply (owns_loose _ _ c _ e2) $$ H2
  iapply (hQ _ _ e1 e2) $$ H3

theorem body_obligation3 (hloc : RowLocal3 F) (c : Dev nD) :
    BodyObligationLoose (dat3 (F := F) V c) (defs₀ (F := F)) Variants.none () Set.univ := fun t => by
  rw [bigSep_W3, bigSep_W3]
  exact sound_body3 V c t _ _ (exists_elim fun _ => exists_intro _) fun _ _ h1 h2 =>
    owns_loose win3_3 _ c _ ((cut_out3_3 hloc _ _ h1 h2).trans (congrArg _ (after3_3 V c t).symm))

theorem body_obligation3_fgt (c : Dev nD) :
    BodyObligationLoose (dat3 (F := F) V c) (defs₀ (F := F)) Variants.none () Set.univ (fun w => decide (w = 3)) := fun t => by
  rw [bigSep_W3, bigSep_W3]
  exact sound_body3 V c t _ _ .rfl fun _ _ _ _ => exists_intro _

theorem index3_0 : ∀ t : Fin cfg3.N, win3_0.index t 1 = 0 := by decide +kernel
theorem index3_1 : ∀ t : Fin cfg3.N, win3_1.index t 0 = t.val ∧ win3_1.index t 1 = 0 := by decide +kernel
theorem index3_2 : ∀ t : Fin cfg3.N, win3_2.index t 1 = t.val := by decide +kernel
theorem index3_3 : ∀ t : Fin cfg3.N, win3_3.index t 1 = t.val := by decide +kernel
theorem xsize3_3 : ∀ t : Fin cfg3.N, win3_3.xsize (grid3.coords t) 0 = 1
    ∧ win3_3.xsize (grid3.coords t) 1 = min 2048 (50257 - 2048 * t.val) := by decide +kernel

theorem disj3_3 (t t' : Fin cfg3.N) (h : t ≠ t') :
    Disjoint ((cfg3.win 3).blk t).view.set ((cfg3.win 3).blk t').view.set :=
  win3_3.disjoint_blk fun e => h (Fin.ext ((index3_3 t).symm.trans ((congrFun e 1).trans (index3_3 t'))))

def pt3 (j : Fin 50257) : Fin cfg3.N := ⟨j.val / 2048, by have := N_3; have := j.isLt; show j.val / 2048 < grid3.N; omega⟩

def col3 (j : Fin 50257) : (win3_3.xblock (grid3.coords (pt3 j))).Idx := fun a =>
  match a with
  | ⟨0, _⟩ => ⟨0, show 0 < win3_3.xsize (grid3.coords (pt3 j)) 0 by rw [(xsize3_3 (pt3 j)).1]; exact Nat.one_pos⟩
  | ⟨1, _⟩ => ⟨j.val % 2048, show j.val % 2048 < win3_3.xsize (grid3.coords (pt3 j)) 1 by
      rw [(xsize3_3 (pt3 j)).2]; have := j.isLt; show j.val % 2048 < min 2048 (50257 - 2048 * (j.val / 2048)); omega⟩

-- Column `j` of the result lies in block `j / 2048`, at column `j % 2048` of it.
theorem final3_at (c : Dev nD) (j : Fin 50257) :
    (dat3 V c).arrAt 3 cfg3.N (ValueIdx.ix2 (0 : Fin 1) j)
      = out3_3 (iblk3 V c 0 (pt3 j)) (blk3_1 V c (pt3 j)) (blk3_2 V c (pt3 j)) (win3_3.xinj (grid3.coords (pt3 j)) (col3 j)) := by
  have e : (win3_3.rect (pt3 j)).emb (col3 j) = ValueIdx.ix2 (0 : Fin 1) j := Shape.idx_ext₂
    (Fin.val_eq_zero _)
    (by rw [win3_3.rect_emb_val (pt3 j) (col3 j) 1, index3_3 (pt3 j)]; exact Nat.div_add_mod' j.val 2048)
  rw [← e]
  show (dat3 V c).arrAt 3 cfg3.N (((cfg3.win 3).blk (pt3 j)).view.emb (col3 j)) = _
  rw [(dat3 V c).arrAt_emb_eq_flushed 3 (fun t t' _ _ hne => disj3_3 t t' hne) (pt3 j) (flush3_3 _) (col3 j)]
  show (cfg3.win 3).cut (cfg3.grid.coords (pt3 j)) ((dat3 V c).after 3 (pt3 j)) (col3 j) = _
  rw [after3_3]

section IdealValue

variable (VI : (c : Dev nD) → (b : Ref sig .tc) → Buf (Elt Ideal) ((c : Thread nD τ).loc b))

def row3 (j : Fin 50257) (k : Fin 1024) : (win3_1.xblock (grid3.coords (pt3 j))).Idx := fun a =>
  match a with
  | ⟨0, _⟩ => ⟨j.val % 2048, (col3 j 1).isLt⟩
  | ⟨1, _⟩ => k

abbrev arr3_h (c : Dev nD) : S1x1024.Idx → EReal := VI c main_v9
abbrev arr3_O (c : Dev nD) : S50257x1024.Idx → EReal := VI c main_arg12
abbrev arr3_b (c : Dev nD) : S1x50257.Idx → EReal := VI c main_v6
abbrev res3 (c : Dev nD) : S1x50257.Idx → EReal := (dat3 (F := Ideal) VI c).arrAt 3 cfg3.N

theorem final3_ideal (c : Dev nD) (j : Fin 50257) :
    res3 VI c (ValueIdx.ix2 (0 : Fin 1) j)
      = (∑ k : Fin 1024, arr3_h VI c (ValueIdx.ix2 (0 : Fin 1) k) * arr3_O VI c (ValueIdx.ix2 j k))
        + arr3_b VI c (ValueIdx.ix2 (0 : Fin 1) j) := by
  unfold res3
  rw [final3_at]
  unfold out3_3 k3_pay1
  simp only [shapeCast_self]
  rw [ValueIdx.addf_apply]
  simp only [matmul]
  rw [Ideal.matmul_constant_zero_apply,
    ← Equiv.sum_comp (ValueIdx.contrEquiv1 dot_S1x1024_S2048x1024_S1x2048_1_1_0_0_n_n 1024 rfl rfl).symm]
  congr 1
  · refine Finset.sum_congr rfl fun k _ => ?_
    have ck := ValueIdx.contrEquiv1_symm_val dot_S1x1024_S2048x1024_S1x2048_1_1_0_0_n_n 1024 rfl rfl k
    have r2 : dot_S1x1024_S2048x1024_S1x2048_1_1_0_0_n_n.rhsIdx (win3_3.xinj (grid3.coords (pt3 j)) (col3 j))
        ((ValueIdx.contrEquiv1 dot_S1x1024_S2048x1024_S1x2048_1_1_0_0_n_n 1024 rfl rfl).symm k)
          = win3_1.xinj (grid3.coords (pt3 j)) (row3 j k) := Shape.idx_ext₂ rfl ck
    rw [ValueIdx.truncf_apply, ValueIdx.truncf_apply, r2]
    unfold blk3_1
    rw [Window.fill_xinj]
    exact congrArg₂ (fun x y => arr3_h VI c x * arr3_O VI c y)
      (Shape.idx_ext₂ (Fin.val_eq_zero _) ((win3_0.rect_emb_val_of_index_zero (pt3 j) 1 (index3_0 _) _).trans ck))
      (Shape.idx_ext₂ ((win3_1.rect_emb_val (pt3 j) (row3 j k) 0).trans (by rw [(index3_1 _).1]; exact Nat.div_add_mod' j.val 2048))
        (win3_1.rect_emb_val_of_index_zero (pt3 j) 1 (index3_1 _).2 (row3 j k)))
  · unfold blk3_2
    exact (win3_2.fill_xinj _ _ _ (col3 j)).trans (congrArg (arr3_b VI c) (Shape.idx_ext₂ (Fin.val_eq_zero _)
      ((win3_2.rect_emb_val (pt3 j) (col3 j) 1).trans (by rw [index3_2]; exact Nat.div_add_mod' j.val 2048))))

end IdealValue

end Cert.KernelIdeal.R3

end
-- ==== Proof.KI.R0Arr.lean ====
/- Region 0's window arrays against the distinct buffers behind them: windows that read one array hold it by halves of
   its share, dealt at the entry and joined at the exit. -/
import proofs.«411147_j8194797600876_3_alg».proof.Proof.Gen.KernelIdeal.Launch
import Idealize.ShloMosaic.Lib.Pipeline.Frame
import Idealize.ShloMosaic.Lib.Pipeline.RegionsLoop
import Idealize.ShloMosaic.Lib.Tactic

set_option maxRecDepth 16384

noncomputable section

namespace Cert.KernelIdeal.R0Arr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (Pipeline.UD sig nD τ) ℕ

def q0 (w : Fin 8) : PosShare TreeShare := if w = 1 then fullShare.left else if w = 2 then fullShare.right else fullShare

theorem arrBufs0_eq (c : Dev nD) (V : (b : Ref sig .tc) → Buf (Elt F) ((c : Thread nD τ).loc b)) :
    (Pipeline.arrBufs spec0 c V : sProp 𝕄)
      = iprop((((c : Thread nD τ).loc main_v0) ↦{fullShare} V main_v0) ∗ (((c : Thread nD τ).loc main_arg4) ↦{fullShare} V main_arg4)
          ∗ (((c : Thread nD τ).loc main_v2) ↦{fullShare} V main_v2) ∗ (((c : Thread nD τ).loc main_arg2) ↦{fullShare} V main_arg2)
          ∗ (((c : Thread nD τ).loc main_v7_0) ↦{fullShare} V main_v7_0) ∗ (((c : Thread nD τ).loc main_v7_1) ↦{fullShare} V main_v7_1)
          ∗ (((c : Thread nD τ).loc main_v7_2) ↦{fullShare} V main_v7_2)) := by
  unfold Pipeline.arrBufs
  rw [BI.bigSep_eq_bigSepL_of_eq [main_v0, main_arg4, main_v2, main_arg2, main_v7_0, main_v7_1, main_v7_2] (by decide) (by decide)]; rfl

section

variable (a : (pcfg0 (F := F)).Adm) (c : Dev nD) (dat : Dat τ (Elt F) Unit ℕ (Pipeline.UD sig nD τ) ℕ (cfg0 a) c)

theorem arr_pt (w : Fin 8) (q : PosShare TreeShare) (hs : dat.share w = q) (G : Buf (Elt F) (((cfg0 a).win w).arr.view.loc (c : Thread nD τ))) :
    ((((cfg0 a).win w).arr.view.loc (c : Thread nD τ)) ↦[((cfg0 a).win w).arr.view.set]{dat.share w} G : sProp 𝕄)
      = (((c : Thread nD τ).loc (Pipeline.arrRef spec0 w)) ↦{q} G) := by
  rw [hs, show ((cfg0 a).win w).arr.view.set = Finset.univ from (arr_whole0 w).set_eq_univ]

theorem share0 (hq : dat.q = q0) :
    dat.share 0 = fullShare ∧ dat.share 1 = fullShare.left ∧ dat.share 2 = fullShare.right ∧ dat.share 3 = fullShare
      ∧ dat.share 4 = fullShare ∧ dat.share 5 = fullShare ∧ dat.share 6 = fullShare ∧ dat.share 7 = fullShare := by
  have hin : ∀ w : Fin 8, ((cfg0 a).win w).isOut = false → dat.share w = q0 w := fun w hw => by
    unfold Dat.share; rw [hw, if_neg Bool.false_ne_true]; exact congrFun hq w
  have hout : ∀ w : Fin 8, ((cfg0 a).win w).isOut = true → dat.share w = fullShare := fun w hw => by
    unfold Dat.share; rw [hw, if_pos rfl]
  exact ⟨(hin 0 rfl).trans (by decide), (hin 1 rfl).trans (by decide), (hin 2 rfl).trans (by decide), (hin 3 rfl).trans (by decide),
    (hin 4 rfl).trans (by decide), hout 5 rfl, hout 6 rfl, hout 7 rfl⟩

theorem arrays0_eq (hq : dat.q = q0) (G : (w : Fin 8) → Buf (Elt F) (((cfg0 a).win w).arr.view.loc (c : Thread nD τ))) :
    (dat.arrays G : sProp 𝕄)
      = iprop((((c : Thread nD τ).loc main_v0) ↦{fullShare} G 0) ∗ (((c : Thread nD τ).loc main_arg4) ↦{fullShare.left} G 1)
          ∗ (((c : Thread nD τ).loc main_arg4) ↦{fullShare.right} G 2) ∗ (((c : Thread nD τ).loc main_v2) ↦{fullShare} G 3)
          ∗ (((c : Thread nD τ).loc main_arg2) ↦{fullShare} G 4) ∗ (((c : Thread nD τ).loc main_v7_0) ↦{fullShare} G 5)
          ∗ (((c : Thread nD τ).loc main_v7_1) ↦{fullShare} G 6) ∗ (((c : Thread nD τ).loc main_v7_2) ↦{fullShare} G 7)) := by
  obtain ⟨h0, h1, h2, h3, h4, h5, h6, h7⟩ := share0 a c dat hq
  unfold Dat.arrays
  exact (bigSep_W0 _).trans
    (congrArg₂ BI.sep (arr_pt a c dat 0 _ h0 (G 0)) (congrArg₂ BI.sep (arr_pt a c dat 1 _ h1 (G 1))
      (congrArg₂ BI.sep (arr_pt a c dat 2 _ h2 (G 2)) (congrArg₂ BI.sep (arr_pt a c dat 3 _ h3 (G 3))
        (congrArg₂ BI.sep (arr_pt a c dat 4 _ h4 (G 4)) (congrArg₂ BI.sep (arr_pt a c dat 5 _ h5 (G 5))
          (congrArg₂ BI.sep (arr_pt a c dat 6 _ h6 (G 6)) (arr_pt a c dat 7 _ h7 (G 7)))))))))

theorem entry_arrays0 (V : (b : Ref sig .tc) → Buf (Elt F) ((c : Thread nD τ).loc b)) (hq : dat.q = q0)
    (hA : ∀ w, dat.A w = V (Pipeline.arrRef spec0 w)) :
    (Pipeline.arrBufs spec0 c V : sProp 𝕄) ⊢ dat.arrays dat.A := by
  rw [arrBufs0_eq, arrays0_eq a c dat hq, hA 0, hA 1, hA 2, hA 3, hA 4, hA 5, hA 6, hA 7]
  iintro ⟨H0, H4, H2, Ha, H5, H6, H7⟩
  ihave Hs := (pointsTo_share (PosShare.mem_left_op_right fullShare)).1 $$ H4
  icases Hs with ⟨Hl, Hr⟩
  isplitl [H0]; · iexact H0
  isplitl [Hl]; · iexact Hl
  isplitl [Hr]; · iexact Hr
  isplitl [H2]; · iexact H2
  isplitl [Ha]; · iexact Ha
  isplitl [H5]; · iexact H5
  isplitl [H6]; · iexact H6
  iexact H7

theorem exit_arrays0 (V' : (b : Ref sig .tc) → Buf (Elt F) ((c : Thread nD τ).loc b)) (hq : dat.q = q0)
    (F' : (w : Fin 8) → Buf (Elt F) (((cfg0 a).win w).arr.view.loc (c : Thread nD τ)))
    (hF : ∀ w, F' w = V' (Pipeline.arrRef spec0 w)) :
    dat.arrays F' ⊢ (Pipeline.arrBufs spec0 c V' : sProp 𝕄) := by
  rw [arrBufs0_eq, arrays0_eq a c dat hq, hF 0, hF 1, hF 2, hF 3, hF 4, hF 5, hF 6, hF 7]
  iintro ⟨H0, Hl, Hr, H2, Ha, H5, H6, H7⟩
  isplitl [H0]; · iexact H0
  isplitl [Hl Hr]
  · iapply (pointsTo_share (PosShare.mem_left_op_right fullShare)).2
    isplitl [Hl]; · iexact Hl
    iexact Hr
  isplitl [H2]; · iexact H2
  isplitl [Ha]; · iexact Ha
  isplitl [H5]; · iexact H5
  isplitl [H6]; · iexact H6
  iexact H7

end

end Cert.KernelIdeal.R0Arr

end
-- ==== Proof.KI.R0.lean ====
import proofs.«411147_j8194797600876_3_alg».proof.Proof.Gen.KernelIdeal.Launch
import proofs.«411147_j8194797600876_3_alg».proof.Proof.Gen.KernelIdeal.Skeleton
import proofs.«411147_j8194797600876_3_alg».proof.Proof.Gen.KernelIdeal.Points
import proofs.«411147_j8194797600876_3_alg».proof.Proof.KI.R0Arr
import Idealize.ShloMosaic.Lib.Pipeline.FrameBody
import Idealize.ShloMosaic.Lib.Pipeline.Value
import Idealize.ShloMosaic.Lib.Ring
import Idealize.ShloMosaic.Lib.ValueIdx
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix2)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a : (pcfg0 (F := F)).Adm)

def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

abbrev tbM0 : Memref sig .tc .smem S1 .i32 := Memref.whole main_v1

def tok0 : BitVec 32 :=
  tbM0.view.readAt (Elt F) (Rect.unit (s := S1) ![0] S1.size inb_S1_S1_0).toLoadRect (a.1 0)
    (Shape.Idx.first (numel1_S1.symm ▸ Nat.one_pos))

theorem chk_iff (v0 : BitVec 32) : k0_chk1 v0 ↔ v0.toNat < 50257 := by
  simp [k0_chk1, k0_off1, Fin.forall_fin_two] <;> omega

def embRow (c : Dev nD) : Vec F S1x1024 .f32 :=
  fun y => V c main_arg3 (ix2 (⟨min (tok0 a).toNat 50256, by omega⟩ : Fin 50257) (⟨(y 1).val, (y 1).isLt⟩ : Fin 1024))

theorem embRow_apply (hchk : k0_chk1 (tok0 a)) (c : Dev nD) (y : S1x1024.Idx) :
    embRow V a c y = V c main_arg3 (ix2 (⟨(tok0 a).toNat, (chk_iff _).mp hchk⟩ : Fin 50257) (⟨(y 1).val, (y 1).isLt⟩ : Fin 1024)) := by
  have h := (chk_iff _).mp hchk
  unfold embRow
  congr 2
  apply Fin.ext
  show min (tok0 a).toNat 50256 = (tok0 a).toNat
  omega

abbrev scM0 : Memref sig .tc .vmem S1x1024 .f32 := Memref.whole cc0_scratch0
abbrev hbM0 : Memref sig .tc .hbm S50257x1024 .f32 := Memref.whole main_arg3

-- The row the token names is the slice of the matrix at the offsets computed from the token.
theorem embRow_eq_read (hchk : k0_chk1 (tok0 a)) (c : Dev nD) :
    embRow V a c = (hbM0.slice (Rect.unit (s := S50257x1024) (k0_off1 (tok0 a)) S1x1024.size (k0_off1_inb _ hchk)) (fun _ => rfl)).view.read (Elt F) (V c main_arg3) := by
  funext y
  rw [embRow_apply V a hchk, View.read_apply]
  show V c main_arg3 _ = V c main_arg3 _
  refine congrArg (V c main_arg3) (Shape.idx_ext₂ ?_ ?_)
  · show (tok0 a).toNat = (tok0 a).toNat + 1 * (y 0).val
    have : (y 0).val < 1 := (y 0).isLt
    omega
  · show (y 1).val = 0 + 1 * (y 1).val
    omega

abbrev osem0 : Fin 1 → SemLoc sig := fun j => (![SemLoc.dma 8] : Fin 1 → SemLoc sig) j
theorem ownSemFacts0 : Pipeline.OwnSemFacts spec0 osem0 := by decide

def H0 : Finset (Ref sig .tc) := {main_arg3}

def Φ0 (c : Dev nD) : sProp 𝕄 :=
  iprop(Pipeline.ΦD osem0 spec0 H0 V c ∗ Pipeline.prefHeld pre0 c (fun _ => fullShare) a.1)

theorem Φ0_eq (c : Dev nD) :
    (Φ0 V a c : sProp 𝕄)
      = iprop(iprop(Pipeline.scopedRest (Ix := Unit) (Name := ℕ) (U := Pipeline.UD sig nD τ) (Lvl := ℕ) (Val := Elt F) spec0 c ∗ (∃ r, prngReg c r)
          ∗ Pipeline.ownSems0 (Ix := Unit) (Name := ℕ) (U := Pipeline.UD sig nD τ) (Lvl := ℕ) (Val := Elt F) (τ := τ) osem0 c
          ∗ bigSep H0 fun b => ((c : Thread nD τ).loc b) ↦{fullShare} V c b)
        ∗ Pipeline.prefHeld pre0 c (fun _ => fullShare) a.1) := rfl

-- The invariant with the scratch row, the own semaphore, the matrix and the table taken out.
theorem Φ0_open (c : Dev nD) :
    (Φ0 V a c : sProp 𝕄)
      = iprop(iprop(iprop((∃ d, owns c.tc scM0 fullShare d)
            ∗ Pipeline.scopedRestBut (Ix := Unit) (Name := ℕ) (U := Pipeline.UD sig nD τ) (Lvl := ℕ) (Val := Elt F) spec0 c [cc0_scratch0])
          ∗ (∃ r, prngReg c r) ∗ iprop(semVal (c.tc, SemLoc.dma 8) 0) ∗ iprop(hbM0.view.loc c.tc ↦{fullShare} V c main_arg3))
        ∗ iprop(tbM0.view.loc c.tc ↦{fullShare} a.1 0)) := by
  unfold Φ0 Pipeline.prefHeld
  rw [Pipeline.ΦD_eq, Pipeline.scopedRest_split_of_list spec0 c [cc0_scratch0] (by decide) (by decide),
    Pipeline.ownSems0_eq_of_list c osem0 [0] (by decide) (by decide), BI.bigSep_eq_bigSepL_of_eq (S := H0) [main_arg3] (by decide) (by decide),
    show (Finset.univ : Finset (Fin 1)) = {0} from by decide, bigSep_singleton]
  simp only [scM0, owns_whole]; try rfl

theorem hz2 : (![0, 0] : Fin 2 → Nat) = fun _ => 0 := funext fun a => by fin_cases a <;> rfl

-- A load of a whole buffer reads its contents,
theorem readAt_whole {n : Fin 2 → ℕ} {e : EltTy} {sp : Space} (M : Memref sig .tc sp ⟨2, n⟩ e) (inb : ∀ a, (![0, 0] : Fin 2 → ℕ) a + n a ≤ n a)
    (f : M.view.ty.Contents (Elt F)) : M.view.readAt (Elt F) (Rect.unit ![0, 0] n inb).toLoadRect f = M.view.read (Elt F) f :=
  View.ld_unit_zero hz2 inb _

-- and after a store of a whole buffer the buffer reads what was stored.
theorem read_write_whole {n : Fin 2 → ℕ} {e : EltTy} {sp : Space} {M : Memref sig .tc sp ⟨2, n⟩ e}
    {inb : ∀ a, (![0, 0] : Fin 2 → ℕ) a + n a ≤ n a} {f : M.view.ty.Contents (Elt F)} {w : Shape.Idx ⟨2, n⟩ → Elt F e} :
    M.view.read (Elt F) (M.view.writes (Elt F) f [⟨Rect.unit ![0, 0] n inb, w⟩]) = w :=
  (View.read_writes_eq_canon _ _ _ fun y => ⟨_, List.mem_singleton_self _, View.mem_set_unit_zero hz2 inb y⟩).trans (View.canon_unit_zero hz2 inb w)

-- The body on whole staging buffers: the inputs come back as they were, the outputs hold the row the token names, the weights and the context.
theorem sound_kernel0 (hchk : k0_chk1 (tok0 a)) (c : Dev nD) {i : grid0.Coords}
    {arg3 arg8 arg10 : Memref sig .tc .vmem S1x1024 .f32} {arg4 arg5 arg7 : Memref sig .tc .vmem S2048x1024 .f32}
    {arg6 arg9 : Memref sig .tc .vmem S1x2048 .f32} {h3 : arg3.IsWhole} {h4 : arg4.IsWhole} {h5 : arg5.IsWhole} {h6 : arg6.IsWhole}
    {h7 : arg7.IsWhole} {h8 : arg8.IsWhole} {h9 : arg9.IsWhole} {h10 : arg10.IsWhole}
    {x0 : Vec F S1x1024 .f32} {x1 x2 x4 : Vec F S2048x1024 .f32} {x3 : Vec F S1x2048 .f32}
    {δ0 δ1 δ2 δ3 δ4 δ5 δ6 δ7 : Type} {b5 : δ5 → Vec F S1x1024 .f32} {b6 : δ6 → Vec F S1x2048 .f32} {b7 : δ7 → Vec F S1x1024 .f32}
    {B B' : Set (SemLoc sig × Unit)} (hB' : ∀ p, p ∈ B') :
    iprop(Φ0 V a c ∗ Pipeline.owesWithin c 0 B
        ∗ (∃ _ : δ0, owns c.tc arg3 fullShare x0) ∗ (∃ _ : δ1, owns c.tc arg4 fullShare x1)
        ∗ (∃ _ : δ2, owns c.tc arg5 fullShare x2) ∗ (∃ _ : δ3, owns c.tc arg6 fullShare x3)
        ∗ (∃ _ : δ4, owns c.tc arg7 fullShare x4) ∗ (∃ d, owns c.tc arg8 fullShare (b5 d))
        ∗ (∃ d, owns c.tc arg9 fullShare (b6 d)) ∗ (∃ d, owns c.tc arg10 fullShare (b7 d)))
      ⊢ wp frame (wpE (defs₀ (F := F)) Variants.none c none) Set.univ
          (cc0__attn_kernel i tbM0 (Memref.isWhole_whole _) hbM0 (Memref.isWhole_whole _) arg3 h3 arg4 h4 arg5 h5 arg6 h6 arg7 h7 arg8 h8 arg9 h9
            arg10 h10 scM0 (Memref.isWhole_whole _) cc0_scratch1)
          fun _ => iprop(Φ0 V a c ∗ Pipeline.owesWithin c 0 B'
            ∗ owns c.tc arg3 fullShare x0 ∗ owns c.tc arg4 fullShare x1 ∗ owns c.tc arg5 fullShare x2
            ∗ owns c.tc arg6 fullShare x3 ∗ owns c.tc arg7 fullShare x4
            ∗ owns c.tc arg8 fullShare (embRow V a c)
            ∗ owns c.tc arg9 fullShare (k0_pay1 (embRow V a c) x0 x1 x2 x3)
            ∗ owns c.tc arg10 fullShare (k0_pay2 (embRow V a c) x0 x1 x2 x3 x4)) := by
  have hw := hchk
  unfold tok0 at hw
  simp only [cc0__attn_kernel_eq_skeleton]; unfold cc0__attn_kernel_skel
  simp only [k0_part1_eq_skeleton]
  rw [Φ0_open]
  unfold owns Pipeline.owesWithin
  iintro ⟨⟨⟨⟨⟨%ds, %fs, -, HS⟩, HR⟩, Hg, Hq, Hh⟩, HT⟩, ⟨%W, -, HW⟩, ⟨%_, %f0, %e0, H0⟩, ⟨%_, %f1, %e1, H1⟩, ⟨%_, %f2, %e2, H2⟩, ⟨%_, %f3, %e3, H3⟩, ⟨%_, %f4, %e4, H4⟩, ⟨%d5, %f5, -, H5⟩, ⟨%d6, %f6, -, H6⟩, ⟨%d7, %f7, -, H7⟩⟩
  subst e0 e1 e2 e3 e4
  sl_exec (disch := first | sl_exact hw)
  sl_step
  have hv3 : sound_kernel0.sl.v3 V a hchk c = embRow V a c := by
    sl_unfold_run_names
    exact ((View.readCov_eq_canon_ld _ _ _ fun y => ⟨_, List.mem_singleton_self _, View.mem_set_unit_zero rfl (fun _ => (Nat.zero_add _).le) y⟩).trans
      ((View.ld_unit_zero hz2 _ _).trans (View.canon_unit_zero rfl _ _))).trans (embRow_eq_read V a hchk c).symm
  iframe HR Hg Hh HT
  isplitl [HS Hq]
  · isplitr [Hq]; swap; · iexact Hq
    iexists _, _; isplitr; swap; · iexact HS
    ipureintro; rfl
  isplitl [HW]
  · iexists _; isplitr; swap; · iexact HW
    ipureintro; exact fun p _ => hB' p
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists _; isplitr; swap; · iexact H5
                  ipureintro; exact read_write_whole.trans hv3
  isplitl [H6]; · iexists _; isplitr; swap; · iexact H6
                  ipureintro
                  exact read_write_whole.trans (by unfold sound_kernel0.sl.r_1; simp only [hv3, readAt_whole])
  iexists _; isplitr; swap; · iexact H7
  ipureintro
  exact read_write_whole.trans (by unfold sound_kernel0.sl.r_2; simp only [hv3, readAt_whole])

def dat0 (hchk : k0_chk1 (tok0 a)) (c : Dev nD) : Dat τ (Elt F) Unit ℕ (Pipeline.UD sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => embRow V a c
    | ⟨6, _⟩ => k0_pay1 (embRow V a c) (iblk0 V a c 0 t) (iblk0 V a c 1 t) (iblk0 V a c 2 t) (iblk0 V a c 3 t)
    | ⟨7, _⟩ => k0_pay2 (embRow V a c) (iblk0 V a c 0 t) (iblk0 V a c 1 t) (iblk0 V a c 2 t) (iblk0 V a c 3 t) (iblk0 V a c 4 t)
  Φ _ := Φ0 V a c
  q := R0Arr.q0
  owed _ := 0

theorem A_eq0 (hchk : k0_chk1 (tok0 a)) (c : Dev nD) (w : Fin (cfg0 a).W) : (dat0 V a hchk c).A w = V c (Pipeline.arrRef spec0 w) := by
  dsimp only [dat0]
theorem Φ_eq0 (hchk : k0_chk1 (tok0 a)) (c : Dev nD) (t) : (dat0 V a hchk c).Φ t = Φ0 V a c := rfl
theorem owed_eq0 (hchk : k0_chk1 (tok0 a)) (c : Dev nD) (t) : (dat0 V a hchk c).owed t = 0 := rfl
theorem q_eq0 (hchk : k0_chk1 (tok0 a)) (c : Dev nD) : (dat0 V a hchk c).q = R0Arr.q0 := rfl

-- An input window's staging buffer holds its block at every point, fetched there or not.
theorem before0 (hchk : k0_chk1 (tok0 a)) (c : Dev nD) : ∀ w : Fin 8, w.val < 5 → ∀ t d, (dat0 V a hchk c).before w t d = iblk0 V a c w t
  | ⟨0, _⟩, _ | ⟨1, _⟩, _ | ⟨2, _⟩, _ | ⟨3, _⟩, _ | ⟨4, _⟩, _ => fun t d =>
    ((dat0 V a hchk c).before_in_eq_fetched _ rfl (fun _ => rfl) (fun _ _ _ => rfl) (fun t => by dsimp only [dat0] <;> rfl) t d).trans (by
      unfold Dat.fetched Pipeline.Window.fill
      funext j
      rw [dif_pos ((((cfg0 a).win _).moved_iff _ j).mpr fun a' => (j a').isLt)] <;> rfl)
  | ⟨_ + 5, _⟩, h => absurd h (Nat.not_lt.2 (Nat.le_add_left _ _))

theorem body_obligation0 (hchk : k0_chk1 (tok0 a)) (c : Dev nD) :
    BodyObligation (dat0 (F := F) V a hchk c) (defs₀ (F := F)) Variants.none () Set.univ := fun t => by
  rw [bigSep_W0, bigSep_W0]
  simp (disch := decide) only [before0 V a hchk c]
  dsimp only [dat0]
  exact sound_kernel0 V a hchk c fun _ => Or.inl trivial

def t0 : Fin (cfg0 a).N := ⟨0, by show 0 < grid0.N; rw [N_0]; decide⟩

-- After the one point, an output's array holds under the point's block what the body left there.
theorem arrAt0 (hchk : k0_chk1 (tok0 a)) (c : Dev nD) (w : Fin (cfg0 a).W) (hw : ((cfg0 a).win w).isOut = true)
    (y : (((cfg0 a).win w).xblock ((cfg0 a).grid.coords (t0 a))).Idx) :
    HEq ((dat0 V a hchk c).arrAt w (cfg0 a).N ((((cfg0 a).win w).blk (t0 a)).view.emb y)) ((dat0 V a hchk c).flushed w (t0 a) y) :=
  heq_of_eq_of_heq ((dat0 V a hchk c).arrAt_emb_eq_flushed w (fun t t' _ _ hne => absurd ((fin_N0 t).trans (fin_N0 t').symm) hne) (t0 a)
    ((((cfg0 a).win w).flush_out hw _).mpr (.inl N_0.symm)) y) (cast_heq _ _)

theorem final0_5 (hchk : k0_chk1 (tok0 a)) (c : Dev nD) : (dat0 V a hchk c).arrAt 5 (cfg0 a).N = embRow V a c := by
  funext y
  have h := eq_of_heq (arrAt0 V a hchk c 5 rfl y)
  rwa [show (((cfg0 a).win 5).blk (t0 a)).view.emb y = y from Shape.idx_ext₂
    (((cfg0 a).win 5).rect_emb_val_of_index_zero (t0 a) (0 : Fin 2) rfl y) (((cfg0 a).win 5).rect_emb_val_of_index_zero (t0 a) (1 : Fin 2) rfl y)] at h

theorem final0_6 (hchk : k0_chk1 (tok0 a)) (c : Dev nD) :
    (dat0 V a hchk c).arrAt 6 (cfg0 a).N
      = k0_pay1 (embRow V a c) (iblk0 V a c 0 (t0 a)) (iblk0 V a c 1 (t0 a)) (iblk0 V a c 2 (t0 a)) (iblk0 V a c 3 (t0 a)) := by
  funext y
  have h := eq_of_heq (arrAt0 V a hchk c 6 rfl y)
  rwa [show (((cfg0 a).win 6).blk (t0 a)).view.emb y = y from Shape.idx_ext₂
    (((cfg0 a).win 6).rect_emb_val_of_index_zero (t0 a) (0 : Fin 2) rfl y) (((cfg0 a).win 6).rect_emb_val_of_index_zero (t0 a) (1 : Fin 2) rfl y)] at h

theorem final0_7 (hchk : k0_chk1 (tok0 a)) (c : Dev nD) :
    (dat0 V a hchk c).arrAt 7 (cfg0 a).N
      = k0_pay2 (embRow V a c) (iblk0 V a c 0 (t0 a)) (iblk0 V a c 1 (t0 a)) (iblk0 V a c 2 (t0 a)) (iblk0 V a c 3 (t0 a)) (iblk0 V a c 4 (t0 a)) := by
  funext y
  have h := eq_of_heq (arrAt0 V a hchk c 7 rfl y)
  rwa [show (((cfg0 a).win 7).blk (t0 a)).view.emb y = y from Shape.idx_ext₂
    (((cfg0 a).win 7).rect_emb_val_of_index_zero (t0 a) (0 : Fin 2) rfl y) (((cfg0 a).win 7).rect_emb_val_of_index_zero (t0 a) (1 : Fin 2) rfl y)] at h

theorem iblk0_1_apply (c : Dev nD) (t : Fin (cfg0 a).N) (y : S2048x1024.Idx) :
    iblk0 V a c 1 t y = V c main_arg4 (ix2 (⟨(y 0).val, (y 0).isLt⟩ : Fin 2048) (⟨(y 1).val, Nat.lt_of_lt_of_le (y 1).isLt (by decide)⟩ : Fin 2048)) := by
  exact (View.read_apply _ _).trans (congrArg (V c main_arg4) (Shape.idx_ext₂
    (((cfg0 a).win 1).rect_emb_val_of_index_zero t (0 : Fin 2) rfl y) (((cfg0 a).win 1).rect_emb_val_of_index_zero t (1 : Fin 2) rfl y)))

theorem iblk0_2_apply (c : Dev nD) (t : Fin (cfg0 a).N) (y : S2048x1024.Idx) :
    iblk0 V a c 2 t y = V c main_arg4 (ix2 (⟨(y 0).val, (y 0).isLt⟩ : Fin 2048) (⟨1024 + (y 1).val, by have h : (y 1).val < 1024 := (y 1).isLt; omega⟩ : Fin 2048)) := by
  refine (View.read_apply _ _).trans (congrArg (V c main_arg4) (Shape.idx_ext₂ ?_ ?_))
  · exact ((cfg0 a).win 2).rect_emb_val_of_index_zero t (0 : Fin 2) rfl y
  · refine (((cfg0 a).win 2).rect_emb_val t y (1 : Fin 2)).trans ?_
    show 1 * 1024 + (y 1).val = 1024 + (y 1).val
    omega

theorem iblk0_0_eq (c : Dev nD) (t : Fin (cfg0 a).N) : iblk0 V a c 0 t = fun y : S1x1024.Idx => V c main_v0 y :=
  funext fun y => (View.read_apply _ _).trans (congrArg (V c main_v0) (Shape.idx_ext₂
    (((cfg0 a).win 0).rect_emb_val_of_index_zero t (0 : Fin 2) rfl y) (((cfg0 a).win 0).rect_emb_val_of_index_zero t (1 : Fin 2) rfl y)))
theorem iblk0_3_eq (c : Dev nD) (t : Fin (cfg0 a).N) : iblk0 V a c 3 t = fun y : S1x2048.Idx => V c main_v2 y :=
  funext fun y => (View.read_apply _ _).trans (congrArg (V c main_v2) (Shape.idx_ext₂
    (((cfg0 a).win 3).rect_emb_val_of_index_zero t (0 : Fin 2) rfl y) (((cfg0 a).win 3).rect_emb_val_of_index_zero t (1 : Fin 2) rfl y)))
theorem iblk0_4_eq (c : Dev nD) (t : Fin (cfg0 a).N) : iblk0 V a c 4 t = fun y : S2048x1024.Idx => V c main_arg2 y :=
  funext fun y => (View.read_apply _ _).trans (congrArg (V c main_arg2) (Shape.idx_ext₂
    (((cfg0 a).win 4).rect_emb_val_of_index_zero t (0 : Fin 2) rfl y) (((cfg0 a).win 4).rect_emb_val_of_index_zero t (1 : Fin 2) rfl y)))
end Cert.KernelIdeal.R0
end
-- ==== Proof.KI.Tail.lean ====
/- The two closing host stretches as segments of the run: the row log-softmax of the last region's result, then a reshape. -/
import proofs.«411147_j8194797600876_3_alg».proof.Proof.KI.Fold
import proofs.«411147_j8194797600876_3_alg».proof.Proof.Gen.KernelIdeal.Regions
import Idealize.ShloMosaic.Lib.Pipeline.Regions

set_option maxRecDepth 16384

noncomputable section

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]

local notation "𝕄" => MT nD τ sig Unit (Elt F) ℕ (Pipeline.UD sig nD τ) ℕ

variable (m : (ℓ : Loc nD τ sig) → Buf (Elt F) ℓ)
variable (a0 : (pcfg0 (F := F)).Adm) (d0 : (c : Dev nD) → Dat τ (Elt F) Unit ℕ (Pipeline.UD sig nD τ) ℕ (cfg0 a0) c)

variable (P : (c : Dev nD) → Buf (Elt F) ((c : Thread nD τ).loc main_v10) → Prop)

set_option backward.isDefEq.respectTransparency.types false in
def seg7x : Pipeline.HostSeg (Name := ℕ) (U := Pipeline.UD sig nD τ) (pcfgs (F := F)) defs₀ 𝒱₀ L lv where
  prog := StableHlo.seq hostOps4
  pre c := iprop(∃ x, ⌜P c x⌝ ∗ StableHlo.held (c : Thread nD τ) (Pipeline.ucRefs τ sig) (U7 m a0 d0 c x) ∗ E c)
  post c := iprop(∃ x, ⌜P c x⌝ ∗ StableHlo.held (c : Thread nD τ) (Pipeline.ucRefs τ sig) (U8 m a0 d0 c x) ∗ E c)
  run c {β} k K := by
    iintro ⟨Hk, Hbd, ⟨%x, %hx, Hh, HE⟩, -⟩
    have hseq := StableHlo.wp_seq (defs := Pipeline.defs (pcfgs (F := F)) defs₀) (Variants.lift 𝒱₀) none Set.univ c
      (Pipeline.ucRefs τ sig) k (K := K) hostOps4
      (fun op h => Pipeline.sub_ucRefs op ((List.forall_iff_forall_mem.mp hostOps4_sub) op h))
      (fun op h => (List.forall_iff_forall_mem.mp hostOps4_fresh) op h) (U7 m a0 d0 c x)
    iapply hseq $$ [Hbd Hh]
    · isplitl [Hbd] <;> iassumption
    iintro ⟨Hbd, Hh⟩
    iapply Hk
    isplitl [Hbd]; · iexact Hbd
    iexists x
    isplitr; · ipureintro; exact hx
    isplitl [Hh]; · iexact Hh
    iexact HE

set_option backward.isDefEq.respectTransparency.types false in
def seg8x : Pipeline.HostSeg (Name := ℕ) (U := Pipeline.UD sig nD τ) (pcfgs (F := F)) defs₀ 𝒱₀ L lv where
  prog := StableHlo.seq hostOps4_1
  pre c := iprop(∃ x, ⌜P c x⌝ ∗ StableHlo.held (c : Thread nD τ) (Pipeline.ucRefs τ sig) (U8 m a0 d0 c x) ∗ E c)
  post c := iprop(∃ x, ⌜P c x⌝ ∗ StableHlo.held (c : Thread nD τ) (Pipeline.ucRefs τ sig) (U9 m a0 d0 c x) ∗ E c)
  run c {β} k K := by
    iintro ⟨Hk, Hbd, ⟨%x, %hx, Hh, HE⟩, -⟩
    have hseq := StableHlo.wp_seq (defs := Pipeline.defs (pcfgs (F := F)) defs₀) (Variants.lift 𝒱₀) none Set.univ c
      (Pipeline.ucRefs τ sig) k (K := K) hostOps4_1
      (fun op h => Pipeline.sub_ucRefs op ((List.forall_iff_forall_mem.mp hostOps4_1_sub) op h))
      (fun op h => (List.forall_iff_forall_mem.mp hostOps4_1_fresh) op h) (U8 m a0 d0 c x)
    iapply hseq $$ [Hbd Hh]
    · isplitl [Hbd] <;> iassumption
    iintro ⟨Hbd, Hh⟩
    iapply Hk
    isplitl [Hbd]; · iexact Hbd
    iexists x
    isplitr; · ipureintro; exact hx
    isplitl [Hh]; · iexact Hh
    iexact HE

abbrev T0 (c : Dev nD) : sProp 𝕄 := iprop(StableHlo.held (c : Thread nD τ) (Pipeline.ucRefs τ sig) (V0 m c) ∗ E c)
abbrev TN (c : Dev nD) : sProp 𝕄 :=
  iprop(∃ x, ⌜P c x⌝ ∗ StableHlo.held (c : Thread nD τ) (Pipeline.ucRefs τ sig) (U9 m a0 d0 c x) ∗ ∃ r, prngReg c r)

theorem hinitT (ρ : Dev nD → PrngReg) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅
          ∗ Pipeline.launchCred (0 : Dev nD → CellTallies nD τ sig Unit) c ∗ prngReg c (ρ c) ∗ (BI.emp : sProp 𝕄))) ∗ levAts L lv)
      ⊢ (|={Set.univ}=> bigSep Finset.univ (T0 m) : sProp 𝕄) := by
  refine Pipeline.initEach L lv fun c => ?_
  rw [show unscopedBufs c (fun b => m ((c : Thread nD τ).loc b)) = StableHlo.held (c : Thread nD τ) (Pipeline.ucRefs τ sig) (V0 m c)
    from Pipeline.unscopedBufs_held c (V0 m c)]
  iintro ⟨⟨Hh, -, HO, -, Hp, -⟩, -⟩
  imodintro
  isplitl [Hh]; · iexact Hh
  isplitl [Hp]; · iexists _; iexact Hp
  iexists ∅; iexact HO

theorem hfinT (c : Dev nD) (s' : Phys nD τ sig (Elt F)) :
    iprop(TN m a0 d0 P c ∗ SI s')
      ⊢ (|={Set.univ}=> iprop(⌜∃ x, P c x ∧ ∀ b ∈ Pipeline.ucRefs τ sig, s'.mem.mem ((c : Thread nD τ).1, b) = U9 m a0 d0 c x b⌝ ∗ SI s') : sProp 𝕄) := by
  iintro ⟨⟨%x, %hx, Hh, -⟩, HSI⟩
  unfold StableHlo.held
  ihave Hr := (pointsTo_read_all (Pipeline.ucRefs τ sig) (fun b => ((c : Thread nD τ).1, b)) (U9 m a0 d0 c x) s') $$ [Hh HSI]
  · isplitl [Hh] <;> iassumption
  icases Hr with ⟨%h, HSI⟩
  imodintro
  isplitr
  · ipureintro; exact ⟨x, hx, h⟩
  iexact HSI

end Cert.KernelIdeal.Run

end
-- ==== Proof.KI.RunR.lean ====
import proofs.«411147_j8194797600876_3_alg».proof.Proof.Gen.KernelIdeal.Regions
import proofs.«411147_j8194797600876_3_alg».proof.Proof.Gen.KernelIdeal.Skeleton
import proofs.«411147_j8194797600876_3_alg».proof.Proof.Gen.KernelIdeal.Points
import proofs.«411147_j8194797600876_3_alg».proof.Proof.KI.Fold
import proofs.«411147_j8194797600876_3_alg».proof.Proof.KI.R3
import proofs.«411147_j8194797600876_3_alg».proof.Proof.KI.R0Arr
import proofs.«411147_j8194797600876_3_alg».proof.Proof.KI.R0
import proofs.«411147_j8194797600876_3_alg».proof.Proof.KI.Tail
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]

local notation "𝕄" => MT nD τ sig Unit (Elt F) ℕ (Pipeline.UD sig nD τ) ℕ

variable (m : (ℓ : Loc nD τ sig) → Buf (Elt F) ℓ)
variable (fg : Bool)
variable (a0 : (pcfg0 (F := F)).Adm) (d0 : (c : Dev nD) → Dat τ (Elt F) Unit ℕ (Pipeline.UD sig nD τ) ℕ (cfg0 a0) c)

/-- The tables' admissible contents: the first region's are given, the others have none. -/
abbrev adm : (p : Fin 4) → (pcfgs (F := F) p).Adm
  | ⟨0, _⟩ => a0
  | ⟨1, _⟩ => cfg1.toPCfg_adm
  | ⟨2, _⟩ => cfg2.toPCfg_adm
  | ⟨3, _⟩ => cfg3.toPCfg_adm
  | ⟨_ + 4, h⟩ => absurd h (Nat.not_lt.2 (Nat.le_add_left _ _))

abbrev cf (p : Fin 4) : Cfg sig Λ₀ := Pipeline.pin (pcfgs (F := F)) (adm a0) p

def fgt3 (w : Fin 4) : Bool := fg && decide (w = 3)

/-- Each region's proof data, at the contents the fold gives its entry. -/
def pdats : (p : Fin 4) → (c : Dev nD) → Dat τ (Elt F) Unit ℕ (Pipeline.UD sig nD τ) ℕ (cf a0 p) c
  | ⟨0, _⟩ => fun c => d0 c
  | ⟨1, _⟩ => fun c => R1.dat1 (W4 m a0 d0) c
  | ⟨2, _⟩ => fun c => R2.dat2 (W5 m a0 d0) c
  | ⟨3, _⟩ => fun c => R3.dat3 (W6 m a0 d0) c
  | ⟨_ + 4, h⟩ => absurd h (Nat.not_lt.2 (Nat.le_add_left _ _))
/-- The same as relations; the last region's result window says nothing when `fg`. -/
def rdats : (p : Fin 4) → (c : Dev nD) → RDat τ (Elt F) Unit ℕ (Pipeline.UD sig nD τ) ℕ (cf a0 p) c
  | ⟨3, _⟩ => fun c => (R3.dat3 (W6 m a0 d0) c).toRForget (fgt3 fg)
  | p => fun c => (pdats m a0 d0 p c).toR

def P3 (c : Dev nD) (x : Buf (Elt F) ((c : Thread nD τ).loc main_v10)) : Prop := (rdats m fg a0 d0 3 c).ArrAt 3 cfg3.N x

/-- Where the data owe nothing and allow every pair, the core's empty dues are the data's dues. -/
theorem owes_in {cfg : Cfg sig Λ₀} {c : Dev nD} (R : RDat τ (Elt F) Unit ℕ (Pipeline.UD sig nD τ) ℕ cfg c) (t : Fin (cfg.N + 1))
    (h0 : R.owed t = 0) (hr : R.recorded t = Set.univ) :
    (iprop(∃ W, owes (c : Thread nD τ) (0 : CellTallies nD τ sig Unit) W) : sProp 𝕄) ⊢ R.owesAt () t := by
  unfold Pipeline.RDat.owesAt Pipeline.owesWithin
  rw [h0]
  iintro ⟨%W, H⟩; iexists W; iframe H
  ipureintro; exact fun _ _ => Or.inl (by rw [hr]; trivial)

theorem owes_out {cfg : Cfg sig Λ₀} {c : Dev nD} (R : RDat τ (Elt F) Unit ℕ (Pipeline.UD sig nD τ) ℕ cfg c) (t : Fin (cfg.N + 1))
    (h0 : R.owed t = 0) :
    R.owesAt () t ⊢ (iprop(∃ W, owes (c : Thread nD τ) (0 : CellTallies nD τ sig Unit) W) : sProp 𝕄) := by
  unfold Pipeline.RDat.owesAt Pipeline.owesWithin
  rw [h0]
  iintro ⟨%W, -, H⟩; iexists W; iexact H

theorem unscopedRest_congr {gr W : Nat} (win : Fin W → Pipeline.WinSpec sig gr) (c : Dev nD)
    (V V' : (b : Ref sig .tc) → Buf (Elt F) ((c : Thread nD τ).loc b))
    (h : ∀ b, b ∉ Finset.univ.image (Pipeline.arrRef win) → V' b = V b) :
    (Pipeline.unscopedRest win c V' : sProp 𝕄) = Pipeline.unscopedRest win c V := by
  unfold Pipeline.unscopedRest
  exact bigSep_congr fun b hb => by rw [h b (Finset.mem_sdiff.mp hb).2]

theorem exitE {c : Dev nD} {A Z : sProp 𝕄} {V' : Valuation τ sig (Elt F)}
    (h : iprop(A ∗ Z) ⊢ (unscopedBufs c (fun b => V' b) : sProp 𝕄)) :
    iprop(A ∗ Z ∗ E c) ⊢ iprop(StableHlo.held (c : Thread nD τ) (Pipeline.ucRefs τ sig) V' ∗ E c) :=
  sep_assoc.2.trans (sep_mono (h.trans (Entails.of_eq (Pipeline.unscopedBufs_held c V'))) .rfl)

/-- A region with no table and no semaphore of its own: its arrays leave the unscoped buffers and rejoin them. -/
def regA (p : Fin 4) (win : Pipeline.WinFacts₀ (pcfgs (F := F) p).spec)
    (bp : ∀ w : Fin (cf a0 p).W, 0 < ((cf a0 p).spec w).block.numel)
    (sw : ∀ (w : Fin (cf a0 p).W) (s : Fin ((cf a0 p).spec w).nbuf), (((cf a0 p).spec w).stage s).IsWhole)
    (hb : ∀ c, (rdats m fg a0 d0 p c).BodyObligation (defs₀ (F := F)) 𝒱₀ () Set.univ)
    (hO : ∀ c t, (rdats m fg a0 d0 p c).owed t = 0) (hR : ∀ c, (rdats m fg a0 d0 p c).recorded 0 = Set.univ)
    (hΦ : ∀ c t, (rdats m fg a0 d0 p c).Φ t = Pipeline.ΦA (cf a0 p).spec c)
    (hK : IsEmpty (Fin (pcfgs (F := F) p).pre.K))
    (V : Dev nD → Valuation τ sig (Elt F)) (post : Dev nD → sProp 𝕄)
    (hen : ∀ c, (unscopedBufs c (fun b => V c b) : sProp 𝕄)
      ⊢ iprop((rdats m fg a0 d0 p c).arrays (rdats m fg a0 d0 p c).A ∗ Pipeline.unscopedRest (cf a0 p).spec c (fun b => V c b)))
    (hex : ∀ c, iprop((rdats m fg a0 d0 p c).arraysAt (cf a0 p).N ∗ Pipeline.unscopedRest (cf a0 p).spec c (fun b => V c b) ∗ E c) ⊢ post c) :
    Pipeline.RDat.RegionSeg (pcfgs (F := F)) (adm a0) (rdats m fg a0 d0) () defs₀ 𝒱₀ L lv p where
  win := win
  block_pos := bp
  stage_whole := sw
  K := PEmpty
  osem k := k.elim
  ho := Pipeline.OwnSemFacts.none _
  hbody := hb
  hwaits := Pipeline.RDat.hwaits_of_owed_zero _ _ _ _ L lv p hO
  pre c := iprop(StableHlo.held (c : Thread nD τ) (Pipeline.ucRefs τ sig) (V c) ∗ E c)
  post := post
  X c := iprop(∃ r, prngReg c r)
  Y c := iprop(∃ r, prngReg c r)
  Z c := Pipeline.unscopedRest (cf a0 p).spec c (fun b => V c b)
  hentry c := by
    have h := hen c
    rw [Pipeline.unscopedBufs_held] at h
    iintro ⟨⟨Hu, Hp, HO⟩, -, -⟩
    ihave H := h $$ Hu
    icases H with ⟨Ha, Hz⟩
    ihave HO' := owes_in _ 0 (hO c 0) (hR c) $$ HO
    imodintro
    iframe Ha Hp HO' Hz
    unfold Pipeline.prefHeld; rw [Finset.univ_eq_empty, BI.bigSep_empty]; iempintro
  hin c := by
    rw [hΦ c 0]; unfold Pipeline.ΦA
    iintro ⟨Hp, -, Hr⟩; iframe
  hout c := by
    rw [hΦ c _, Pipeline.ownSems0_none]; unfold Pipeline.ΦA
    iintro ⟨Hr, Hp⟩; iframe; iempintro
  hexit c := by
    iintro ⟨Ha, HO, HY, Hz⟩
    ihave HO' := owes_out _ _ (hO c _) $$ HO
    imodintro
    iapply hex c
    unfold E; iframe

theorem hF1 (c : Dev nD) (w : Fin cfg1.W) : (R1.dat1 (W4 m a0 d0) c).arrAt w cfg1.N = W5 m a0 d0 c (Pipeline.arrRef spec1 w) := by
  by_cases hw : w = 5
  · subst hw; exact (U5_v8 m a0 d0 c).symm
  · rw [(R1.dat1 (W4 m a0 d0) c).arrAt_in w (by revert w; decide) _]
    exact (U5_of m a0 d0 c _ (by revert w; decide)).symm

theorem hen1 (c : Dev nD) : (unscopedBufs c (W4 m a0 d0 c) : sProp 𝕄)
    ⊢ iprop((rdats m fg a0 d0 1 c).arrays (rdats m fg a0 d0 1 c).A ∗ Pipeline.unscopedRest spec1 c (W4 m a0 d0 c)) := by
  rw [Pipeline.unscopedBufs_split₀ (cf a0) (1 : Fin 4) winFacts₀1.arr_unscoped c]
  exact sep_mono (R1.entry_arrays1 (W4 m a0 d0) c) .rfl

theorem hex1 (c : Dev nD) : iprop((rdats m fg a0 d0 1 c).arraysAt cfg1.N ∗ Pipeline.unscopedRest spec1 c (W4 m a0 d0 c) ∗ E c)
    ⊢ (iprop(StableHlo.held (c : Thread nD τ) (Pipeline.ucRefs τ sig) (U5 m a0 d0 c) ∗ E c) : sProp 𝕄) := by
  refine exitE ((BI.sep_mono ?_ (Entails.of_eq (unscopedRest_congr spec1 c (W4 m a0 d0 c) (W5 m a0 d0 c) fun b hb =>
    U5_of m a0 d0 c b fun e => hb (Finset.mem_image.mpr ⟨5, Finset.mem_univ _, e.symm⟩)).symm)).trans
    (Entails.of_eq (Pipeline.unscopedBufs_split₀ (cf a0) (1 : Fin 4) winFacts₀1.arr_unscoped c (W5 m a0 d0 c)).symm))
  exact (Entails.of_eq ((R1.dat1 (W4 m a0 d0) c).toR_arraysAt_eq cfg1.N)).trans
    (R1.exit_arrays1 (W4 m a0 d0) c (W5 m a0 d0 c) (hF1 m a0 d0 c))

def reg1 :=
  regA m fg a0 d0 1 winFacts₀1 block_pos1 stage_whole1 (fun c => (R1.body_obligation1 (W4 m a0 d0) c).loose.toR)
    (fun _ _ => rfl) (fun _ => rfl) (fun _ _ => rfl) ⟨Fin.elim0⟩ (U4 m a0 d0) _ (hen1 m fg a0 d0) (hex1 m fg a0 d0)

theorem hF2 (c : Dev nD) (w : Fin cfg2.W) : (R2.dat2 (W5 m a0 d0) c).arrAt w cfg2.N = W6 m a0 d0 c (Pipeline.arrRef spec2 w) := by
  by_cases hw : w = 6
  · subst hw; exact (U6_v9 m a0 d0 c).symm
  · rw [R2.final2_in (W5 m a0 d0) c w hw]
    exact (U6_of m a0 d0 c _ (by revert w; decide)).symm

def reg2 :=
  regA m fg a0 d0 2 winFacts2.to₀ block_pos2 stage_whole2 (fun c => (R2.body_obligation2 (W5 m a0 d0) c).loose.toR)
    (fun _ _ => rfl) (fun _ => rfl) (fun _ _ => rfl) ⟨Fin.elim0⟩ (U5 m a0 d0)
    (fun c => iprop(StableHlo.held (c : Thread nD τ) (Pipeline.ucRefs τ sig) (U6 m a0 d0 c) ∗ E c))
    (fun c => Pipeline.RDat.arrays_of_unscopedBufs (p := 2) (pcfgs (F := F)) (adm a0) (rdats m fg a0 d0) winFacts2 arr_whole2 c
      ((R2.dat2 (W5 m a0 d0) c).share_full fun _ => rfl) (W5 m a0 d0 c) fun _ => rfl)
    (fun c => exitE ((sep_mono (Entails.of_eq ((R2.dat2 (W5 m a0 d0) c).toR_arraysAt_eq cfg2.N)) .rfl).trans
      (Pipeline.unscopedBufs_of_arrays (p := 2) (pcfgs (F := F)) (adm a0) winFacts2 arr_whole2 c (pdats m a0 d0)
        ((pdats m a0 d0 2 c).share_full fun _ => rfl) (W5 m a0 d0 c) (W6 m a0 d0 c) ((pdats m a0 d0 2 c).arrAt · cfg2.N) (hF2 m a0 d0 c)
        fun b hb => U6_of m a0 d0 c b fun e => hb (Finset.mem_image.mpr ⟨6, Finset.mem_univ _, e.symm⟩))))

variable (hA0 : ∀ c w, (d0 c).A w = W3 m c (Pipeline.arrRef spec0 w))
    (hΦ0 : ∀ c t, (d0 c).Φ t = R0.Φ0 (W3 m) a0 c)
    (hO0 : ∀ c t, (d0 c).owed t = 0)
    (hR0 : ∀ c t, (d0 c).recorded t = Set.univ)
    (hq0 : ∀ c, (d0 c).q = R0Arr.q0)
    (hb0 : ∀ c, BodyObligation (d0 c) (defs₀ (F := F)) Variants.none () Set.univ)
    (htbl : ∀ c : Dev nD, a0.1 = fun k => W3 m c (pre0.ref k))
    (hb3 : ∀ c, ((R3.dat3 (W6 m a0 d0) c).toRForget (fgt3 fg)).BodyObligation (defs₀ (F := F)) 𝒱₀ () Set.univ)

set_option maxHeartbeats 2000000 in
/-- No input array is written, so at the exit only the result array's contents are open. -/
theorem exit3 (c : Dev nD) :
    iprop((rdats m fg a0 d0 3 c).arraysAt cfg3.N ∗ Pipeline.unscopedRest spec3 c (W6 m a0 d0 c) ∗ E c)
      ⊢ (iprop(∃ x, ⌜P3 m fg a0 d0 c x⌝ ∗ StableHlo.held (c : Thread nD τ) (Pipeline.ucRefs τ sig) (U7 m a0 d0 c x) ∗ E c) : sProp 𝕄) := by
  have h1 : ∀ w : Fin 4, w ≠ 3 → Pipeline.arrRef spec3 w ≠ main_v10 := by decide
  have h2 : ∀ w : Fin 4, w ≠ 3 → (cfg3.win w).isOut = false := by decide
  have e (w : Fin 4) (hw : w ≠ 3) (x) (G) (h : (rdats m fg a0 d0 3 c).ArrAt w cfg3.N G) : U7 m a0 d0 c x (Pipeline.arrRef spec3 w) = G :=
    (U7_of m a0 d0 c x _ (h1 w hw)).trans (((R3.dat3 (W6 m a0 d0) c).arrAt_in w (h2 w hw) _).symm.trans
      (((R3.dat3 (W6 m a0 d0) c).toRForget_arrAt_iff (fgt := fgt3 fg) (by rw [fgt3, decide_eq_false hw, Bool.and_false]) _ G).mp h).symm)
  unfold Pipeline.RDat.arraysAt
  rw [bigSep_W3]
  iintro ⟨⟨⟨%F0, %h0, H0⟩, ⟨%F1, %h1, H1⟩, ⟨%F2, %h2, H2⟩, ⟨%x, %hx, H3⟩⟩, Hz, HE⟩
  iexists x
  iframe HE
  isplitr; · ipureintro; exact hx
  rw [← Pipeline.unscopedBufs_held]
  iapply Pipeline.unscopedBufs_of_arrays (p := 3) (pcfgs (F := F)) (adm a0) winFacts3 arr_whole3 c (pdats m a0 d0)
    ((pdats m a0 d0 3 c).share_full fun _ => rfl) (W6 m a0 d0 c) (fun b => U7 m a0 d0 c x b) (fun w => U7 m a0 d0 c x (Pipeline.arrRef spec3 w))
    (fun _ => rfl) fun b hb => U7_of m a0 d0 c x b fun e => hb (Finset.mem_image.mpr ⟨3, Finset.mem_univ _, e.symm⟩)
  iframe Hz
  unfold Pipeline.Dat.arrays
  rw [bigSep_W3]
  dsimp only
  rw [e 0 (by decide) x F0 h0, e 1 (by decide) x F1 h1, e 2 (by decide) x F2 h2, U7_v10]
  isplitl [H0]; · iexact H0
  isplitl [H1]; · iexact H1
  isplitl [H2]; · iexact H2
  iexact H3

def reg3 :=
  regA m fg a0 d0 3 winFacts3.to₀ block_pos3 stage_whole3 hb3 (fun _ _ => rfl) (fun _ => rfl) (fun _ _ => rfl) ⟨Fin.elim0⟩ (U6 m a0 d0) _
    (fun c => Pipeline.RDat.arrays_of_unscopedBufs (p := 3) (pcfgs (F := F)) (adm a0) (rdats m fg a0 d0) winFacts3 arr_whole3 c
      ((R3.dat3 (W6 m a0 d0) c).share_full fun _ => rfl) (W6 m a0 d0 c) fun _ => rfl)
    (exit3 m fg a0 d0)

include hA0 in
theorem hF0 (c : Dev nD) (w : Fin 8) :
    (d0 c).arrAt w (cfg0 a0).N = W4 m a0 d0 c (Pipeline.arrRef spec0 w) := by
  rcases Nat.lt_or_ge w.1 5 with h | h
  · rw [(d0 c).arrAt_in w ((by decide : ∀ w : Fin 8, w.1 < 5 → (spec0 w).isOut = false) w h) _, hA0]
    exact (U4_of m a0 d0 c _ (by revert w; decide)).symm
  · obtain rfl | rfl | rfl : w = 5 ∨ w = 6 ∨ w = 7 := by revert w; decide
    exacts [(U4_v7_0 m a0 d0 c).symm, (U4_v7_1 m a0 d0 c).symm, (U4_v7_2 m a0 d0 c).symm]

/-- The unscoped buffers sorted for the first region: its arrays' buffers at `V'`, all others at the entry contents. -/
theorem held0 (c : Dev nD) (V' : Valuation τ sig (Elt F)) (h : ∀ b, b ∉ Finset.univ.image (Pipeline.arrRef spec0) → V' b = W3 m c b)
    (htbl : a0.1 = fun k => W3 m c (pre0.ref k)) :
    (StableHlo.held (c : Thread nD τ) (Pipeline.ucRefs τ sig) V' : sProp 𝕄)
      = iprop(Pipeline.arrBufs spec0 c (fun b => V' b) ∗ Pipeline.prefHeld pre0 c (fun _ => fullShare) a0.1
          ∗ (bigSep R0.H0 fun b => ((c : Thread nD τ).loc b) ↦{fullShare} W3 m c b)
          ∗ bigSep (Pipeline.restRefsP sig pre0 spec0 \ R0.H0) fun b => ((c : Thread nD τ).loc b) ↦{fullShare} W3 m c b) := by
  have h1 : (unscopedBufs c (fun b => V' b) : sProp 𝕄)
      = iprop(Pipeline.arrBufs spec0 c (fun b => V' b) ∗ Pipeline.unscopedRest spec0 c (fun b => V' b)) :=
    Pipeline.unscopedBufs_split₀ (cf a0) (0 : Fin 4) winFacts₀0.arr_unscoped c _
  rw [htbl, ← Pipeline.unscopedBufs_held, h1, unscopedRest_congr spec0 c (W3 m c) (fun b => V' b) h,
    Pipeline.unscopedRest_split preFacts0, Pipeline.unscopedRestP_sdiff pre0 spec0 R0.H0 (by decide)]

def reg0 :
    Pipeline.RDat.RegionSeg (pcfgs (F := F)) (adm a0) (rdats m fg a0 d0) () defs₀ 𝒱₀ L lv 0 where
  win := winFacts₀0
  block_pos := block_pos0
  stage_whole := stage_whole0
  K := Fin 1
  osem := R0.osem0
  ho := R0.ownSemFacts0
  hbody c := (hb0 c).loose.toR
  hwaits := Pipeline.RDat.hwaits_of_owed_zero _ _ _ _ L lv 0 hO0
  pre c := iprop(StableHlo.held (c : Thread nD τ) (Pipeline.ucRefs τ sig) (V3 m c) ∗ E c)
  post c := iprop(StableHlo.held (c : Thread nD τ) (Pipeline.ucRefs τ sig) (U4 m a0 d0 c) ∗ E c)
  X c := iprop((∃ r, prngReg c r) ∗ Pipeline.ownSems0 R0.osem0 c
    ∗ (bigSep R0.H0 fun b => ((c : Thread nD τ).loc b) ↦{fullShare} W3 m c b))
  Y c := iprop((∃ r, prngReg c r) ∗ (bigSep R0.H0 fun b => ((c : Thread nD τ).loc b) ↦{fullShare} W3 m c b)
    ∗ Pipeline.prefHeld pre0 c (fun _ => fullShare) a0.1)
  Z c := bigSep (Pipeline.restRefsP sig pre0 spec0 \ R0.H0) fun b => ((c : Thread nD τ).loc b) ↦{fullShare} W3 m c b
  hentry c := by
    rw [held0 m a0 c (V3 m c) (fun _ _ => rfl) (htbl c)]
    iintro ⟨⟨⟨Ha, Ht, HH, HR⟩, Hp, HO⟩, Hos, -⟩
    ihave Ha' := ((R0Arr.entry_arrays0 a0 c (d0 c) (W3 m c) (hq0 c) (hA0 c)).trans
      (Entails.of_eq (show _ = (rdats m fg a0 d0 0 c).arrays (rdats m fg a0 d0 0 c).A from rfl))) $$ Ha
    ihave HO' := owes_in (rdats m fg a0 d0 0 c) 0 (hO0 c 0) (hR0 c 0) $$ HO
    imodintro
    isplitl [Ha']; · iexact Ha'
    iframe HO' Hp Hos HH HR
    iexact Ht
  hin c := by
    rw [show (rdats m fg a0 d0 0 c).Φ 0 = R0.Φ0 (W3 m) a0 c from hΦ0 c 0, R0.Φ0_eq]
    iintro ⟨⟨Hp, Ho, HH⟩, Ht, Hr⟩
    iframe Hp Ho HH Hr
    iexact Ht
  hout c := by
    rw [show (rdats m fg a0 d0 0 c).Φ (Fin.last _) = R0.Φ0 (W3 m) a0 c from hΦ0 c _, R0.Φ0_eq]
    iintro ⟨⟨Hr, Hp, Ho, HH⟩, Ht⟩
    iframe
  hexit c := by
    refine (sep_mono (Entails.of_eq ((d0 c).toR_arraysAt_eq (cfg0 a0).N)) .rfl).trans ?_
    rw [held0 m a0 c (U4 m a0 d0 c) (fun b hb => U4_of m a0 d0 c b fun h => hb
      ((by decide : ∀ b ∈ ([main_v7_0, main_v7_1, main_v7_2] : List (Ref sig .tc)), b ∈ Finset.univ.image (Pipeline.arrRef spec0)) b h)) (htbl c)]
    iintro ⟨Ha, HO, ⟨HY, HH, Ht⟩, HR⟩
    ihave Ha' := (R0Arr.exit_arrays0 a0 c (d0 c) (W4 m a0 d0 c) (hq0 c) _ (hF0 m a0 d0 hA0 c)) $$ Ha
    ihave HO' := owes_out (rdats m fg a0 d0 0 c) (Fin.last _) (hO0 c _) $$ HO
    imodintro
    unfold E; iframe

include hA0 hΦ0 hO0 hR0 hq0 hb0 htbl hb3 in
/-- Every fair execution ends, each unscoped buffer at the fold's last valuation for some result of the last region. -/
theorem run_main (ρ : Dev nD → PrngReg) :
    θ_run defs (onTc (τ := τ) (main (F := F))) ⟨m, fun _ => 0, ρ⟩ (fun r => ∀ c : Dev nD,
      ∃ x, P3 m fg a0 d0 c x ∧ ∀ b ∈ Pipeline.ucRefs τ sig, r.2.mem ((c : Thread nD τ).1, b) = U9 m a0 d0 c x b) := by
  refine Pipeline.RDat.θ_run_regions_kit_dev (pcfgs (F := F)) (adm a0) (rdats m fg a0 d0) () (cellOf_inj (adm a0)) embL defs₀ 𝒱₀ L lv m ρ main
    (fun _ => [.host (seg0 m 𝒱₀ L lv fun _ => E), .host (seg1 m 𝒱₀ L lv fun _ => E), .host (seg2 m 𝒱₀ L lv fun _ => E),
      .region (reg0 m fg a0 d0 hA0 hΦ0 hO0 hR0 hq0 hb0 htbl), .region (reg1 m fg a0 d0), .region (reg2 m fg a0 d0),
      .region (reg3 m fg a0 d0 hb3), .host (seg7x m a0 d0 (P3 m fg a0 d0)), .host (seg8x m a0 d0 (P3 m fg a0 d0))])
    (fun c Q => by rewrite [main_chain c, Pipeline.RDat.Seg.run_eq_chain]; exact .rfl)
    (fun c => by simp only [Pipeline.RDat.Seg.pipes_host, Pipeline.RDat.Seg.pipes_region, Pipeline.RDat.Seg.pipes_nil]; decide)
    (O₀ := 0) (hL := fun _ _ => rfl) (G := fun _ => BI.emp)
    (u₀ := (initOf (Pipeline.cells (cf a0) (cellOf_inj (adm a0))) (Pipeline.launchToks (cf a0) (cellOf_inj (adm a0))), 1))
    (hu₀ := by
      iintro Hu
      ihave H := (ownU_pair _ _) $$ Hu
      icases H with ⟨HP, -⟩
      imodintro
      iframe HP
      rw [BI.bigSep_emp_const]; iempintro)
    (T₀ := T0 m) (Tₙ := TN m a0 d0 (P3 m fg a0 d0))
    (hch := fun c => ⟨.rfl, .rfl, .rfl, .rfl, .rfl, .rfl, .rfl, .rfl, .rfl, by
      show iprop(∃ x, ⌜P3 m fg a0 d0 c x⌝ ∗ StableHlo.held (c : Thread nD τ) (Pipeline.ucRefs τ sig) (U9 m a0 d0 c x) ∗ E c) ⊢ iprop(_ ∗ _)
      iintro ⟨%x, %hx, Hh, Hp, HO⟩
      iframe HO
      iexists x
      iframe
      ipureintro; exact hx⟩)
    (hinit := hinitT m ρ)
    (QY := fun c s => ∃ x, P3 m fg a0 d0 c x ∧ ∀ b ∈ Pipeline.ucRefs τ sig, s.mem ((c : Thread nD τ).1, b) = U9 m a0 d0 c x b)
    (hfin := fun c s' => hfinT m a0 d0 (P3 m fg a0 d0) c s') (hQ := fun _ h => h)

end Cert.KernelIdeal.Run

end
-- ==== Proof.KI.Clip.lean ====
/- `min (50256, max (0, w))` on signed 32-bit words lies in `[0, 50256]` for every `w`, and is `w` when `0 ≤ w < 50257`. -/
import proofs.«411147_j8194797600876_3_alg».proof.Proof.Gen.KernelIdeal.Regions
import Idealize.ShloMosaic.Lib.StableHlo.Run
import Idealize.ShloMosaic.Lib.StableHlo.Predicate
import Idealize.ShloMosaic.Lib.ValueIdx

noncomputable section

namespace Cert.KernelIdeal.HostVal

open Idealize.ShloMosaic Idealize.ShloMosaic.TcCoe Idealize.ShloMosaic.ValueIdx
open Idealize.SL.Sem
open Cert.KernelIdeal Cert.KernelIdeal.Gen

variable {F : FTy → Type} [FloatOps F]

abbrev clipWord (a : BitVec 32) : BitVec 32 := IntOp.minsi 50256#32 (IntOp.maxsi 0#32 a)

theorem clipWord_toNat_le (a : BitVec 32) : (clipWord a).toNat ≤ 50256 := by
  have h0 : (0#32 : BitVec 32).toInt = 0 := by decide
  have h1 : (50256#32 : BitVec 32).toInt = 50256 := by decide
  have ha := BitVec.toInt_eq_toNat_cond a
  unfold clipWord IntOp.minsi IntOp.maxsi
  by_cases hs : a.slt 0#32 = true
  · rw [if_pos hs]
    have : ¬ ((50256#32 : BitVec 32).slt 0#32 = true) := by decide
    rw [if_neg this]; decide
  · rw [if_neg hs]
    by_cases hb : (50256#32 : BitVec 32).slt a = true
    · rw [if_pos hb]; decide
    · rw [if_neg hb]
      simp only [BitVec.slt, h0, h1, decide_eq_true_eq] at hs hb
      split at ha <;> omega

theorem clipWord_of_lt (t : Fin 50257) : clipWord (BitVec.ofNat 32 t.val) = BitVec.ofNat 32 t.val := by
  have ht := t.isLt
  have hti : (BitVec.ofNat 32 t.val).toInt = t.val := StableHlo.Predicate.toInt_ofNat_small t.val (by omega)
  have h0 : (0#32 : BitVec 32).toInt = 0 := by decide
  have h1 : (50256#32 : BitVec 32).toInt = 50256 := by decide
  unfold clipWord IntOp.minsi IntOp.maxsi
  have hs : ¬ ((BitVec.ofNat 32 t.val).slt 0#32 = true) := by
    simp only [BitVec.slt, hti, h0, decide_eq_true_eq]; omega
  rw [if_neg hs]
  have hb : ¬ ((50256#32 : BitVec 32).slt (BitVec.ofNat 32 t.val) = true) := by
    simp only [BitVec.slt, hti, h1, decide_eq_true_eq]; omega
  rw [if_neg hb]

theorem chk1_of_le (w : BitVec 32) (h : w.toNat ≤ 50256) : k0_chk1 w := by
  intro a
  match a with
  | ⟨0, _⟩ => show w.toNat + 1 ≤ 50257; omega
  | ⟨1, _⟩ => show 0 + 1024 ≤ 1024; omega

section Launch

variable (m : (ℓ : Loc nD τ sig) → Buf (Elt F) ℓ)

theorem V3_main_v1 (c : Dev nD) :
    (V3 m c main_v1 : IVec S1 32)
      = minsi (broadcastInDim S1 ![] bcast_S_S1 (constantI S_ 32 50256#32))
          (maxsi (broadcastInDim S1 ![] bcast_S_S1 (constantI S_ 32 0#32)) (m ((c : Thread nD τ).loc main_arg0))) := by
  rw [V3_of m c main_v1 (by decide)]
  dsimp only [V2, V1, V0, hostOps0_1, hostOps0]
  after_results
  rfl

theorem V3_main_v1_word (c : Dev nD) :
    (V3 m c main_v1 : IVec S1 32) (ix1 0) = clipWord ((m ((c : Thread nD τ).loc main_arg0) : IVec S1 32) (ix1 0)) := by
  rw [V3_main_v1]; rfl

theorem V3_main_v1_chk (c : Dev nD) : k0_chk1 ((V3 m c main_v1 : IVec S1 32) (ix1 0)) := by
  rw [V3_main_v1_word]; exact chk1_of_le _ (clipWord_toNat_le _)

theorem V3_main_v1_of_token (c : Dev nD) (t : Fin 50257)
    (ht : (m ((c : Thread nD τ).loc main_arg0) : IVec S1 32) (ix1 0) = BitVec.ofNat 32 t.val) :
    (V3 m c main_v1 : IVec S1 32) (ix1 0) = BitVec.ofNat 32 t.val
      ∧ ((V3 m c main_v1 : IVec S1 32) (ix1 0)).toNat = t.val := by
  have e : (V3 m c main_v1 : IVec S1 32) (ix1 0) = BitVec.ofNat 32 t.val := by
    rw [V3_main_v1_word, ht, clipWord_of_lt]
  refine ⟨e, ?_⟩
  rw [e, BitVec.toNat_ofNat]
  have := t.isLt
  omega

end Launch

end Cert.KernelIdeal.HostVal

end
-- ==== Proof.KI.Inst.lean ====
/- The first region's token table at the launch memory: one word, the clamped token, which names a row of the embedding
   table. -/
import proofs.«411147_j8194797600876_3_alg».proof.Proof.KI.Fold
import proofs.«411147_j8194797600876_3_alg».proof.Proof.KI.R0
import proofs.«411147_j8194797600876_3_alg».proof.Proof.KI.Clip
import Idealize.ShloMosaic.Lib.ValueIdx

set_option maxRecDepth 16384

noncomputable section

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Idealize.ShloMosaic.ValueIdx (ix1)
variable {F : FTy → Type} [FloatOps F]

variable (m : (ℓ : Loc nD τ sig) → Buf (Elt F) ℓ)

def tbl : pre0.Contents (Elt F) := fun k => W3 m (0 : Dev nD) (pre0.ref k)

def a0 : (pcfg0 (F := F)).Adm := ⟨tbl m, trivial⟩

theorem htbl (c : Dev nD) : (a0 m).1 = fun k => W3 m c (pre0.ref k) := by
  obtain rfl : c = 0 := Subsingleton.elim _ _
  rfl

theorem off0 : (![0] : Fin 1 → Nat) = fun _ => 0 := funext fun a => by fin_cases a; rfl

theorem tok0_word (a : (pcfg0 (F := F)).Adm) : R0.tok0 a = (a.1 0 : IVec S1 32) (ix1 0) :=
  (congrFun (Memref.readAt_unit_zero (Elt F) main_v1 off0 inb_S1_S1_0 (a.1 0))
      (Shape.Idx.first (numel1_S1.symm ▸ Nat.one_pos))).trans
    (congrArg (a.1 0 : IVec S1 32) (funext fun d => match d with | ⟨0, _⟩ => rfl))

theorem tok0_at (W : (b : Ref sig .tc) → Buf (Elt F) (((0 : Dev nD) : Thread nD τ).loc b)) :
    R0.tok0 (⟨fun k => W (pre0.ref k), trivial⟩ : (pcfg0 (F := F)).Adm) = (W main_v1 : IVec S1 32) (ix1 0) :=
  tok0_word _

theorem tok0_eqW : R0.tok0 (a0 m) = (W3 m (0 : Dev nD) main_v1 : IVec S1 32) (ix1 0) := tok0_at (W3 m 0)
theorem tok0_eq : R0.tok0 (a0 m) = (V3 m (0 : Dev nD) main_v1 : IVec S1 32) (ix1 0) := tok0_eqW m

theorem hchk : k0_chk1 (R0.tok0 (a0 m)) := by
  rw [tok0_eq]; exact HostVal.V3_main_v1_chk m 0

theorem tok0_of_token (t : Fin 50257)
    (ht : (m (((0 : Dev nD) : Thread nD τ).loc main_arg0) : IVec S1 32) (ix1 0) = BitVec.ofNat 32 t.val) :
    (R0.tok0 (a0 m)).toNat = t.val := by
  rw [tok0_eq]; exact (HostVal.V3_main_v1_of_token m 0 t ht).2

end Cert.KernelIdeal.Run

end
-- ==== Proof.KI.Read.lean ====
import proofs.«411147_j8194797600876_3_alg».proof.Proof.KI.Fold
import proofs.«411147_j8194797600876_3_alg».proof.Proof.Gen.KernelIdeal.Regions
import Idealize.ShloMosaic.Lib.ValueIdx
import Idealize.ShloMosaic.Lib.ValueLayout

set_option maxRecDepth 16384

noncomputable section

namespace Cert.KernelIdeal.Run
open Cert.KernelIdeal Cert.KernelIdeal.Gen
open Idealize.ShloMosaic Idealize.ShloMosaic.TcCoe Idealize.ShloMosaic.ValueIdx
open Idealize.SL Idealize.SL.Sem
open Idealize.ShloMosaic.Pipeline (Dat)
variable {F : FTy → Type} [FloatOps F]

variable (m : (ℓ : Loc nD τ sig) → Buf (Elt F) ℓ)
variable (a0 : (pcfg0 (F := F)).Adm) (d0 : (c : Dev nD) → Dat τ (Elt F) Unit ℕ (Pipeline.UD sig nD τ) ℕ (cfg0 a0) c)

theorem U9_of (c : Dev nD) (x) (r : Ref sig .tc) (h : r ∉ hostOps4_1_W) : U9 m a0 d0 c x r = U8 m a0 d0 c x r :=
  StableHlo.after_of_writes_sub hostOps4_1 _ hostOps4_1_writes h
theorem U8_of (c : Dev nD) (x) (r : Ref sig .tc) (h : r ∉ hostOps4_W) : U8 m a0 d0 c x r = U7 m a0 d0 c x r :=
  StableHlo.after_of_writes_sub hostOps4 _ hostOps4_writes h

/-- The program's fourteen arguments. -/
abbrev args : List (Ref sig .tc) :=
  [main_arg0, main_arg1, main_arg2, main_arg3, main_arg4, main_arg5, main_arg6, main_arg7, main_arg8, main_arg9, main_arg10,
    main_arg11, main_arg12, main_arg13]

/-- No host stretch writes an argument and none is a region's result, so it ends as it was launched. -/
theorem U9_arg (c : Dev nD) (x) (r : Ref sig .tc) (hr : r ∈ args) : U9 m a0 d0 c x r = m ((c : Thread nD τ).loc r) := by
  obtain ⟨h9, h8, h7, h6, h5, h4, h3, h2, h1⟩ := (by decide : ∀ r ∈ args, r ∉ hostOps4_1_W ∧ r ∉ hostOps4_W ∧ r ≠ main_v10
    ∧ r ≠ main_v9 ∧ r ≠ main_v8 ∧ r ∉ ([main_v7_0, main_v7_1, main_v7_2] : List (Ref sig .tc)) ∧ r ∉ hostOps0_2_W
    ∧ r ∉ hostOps0_1_W ∧ r ∉ hostOps0_W) r hr
  exact (U9_of m a0 d0 c x r h9).trans <| (U8_of m a0 d0 c x r h8).trans <| (U7_of m a0 d0 c x r h7).trans <|
    (U6_of m a0 d0 c r h6).trans <| (U5_of m a0 d0 c r h5).trans <| (U4_of m a0 d0 c r h4).trans <|
    (V3_of m c r h3).trans <| (V2_of m c r h2).trans <| (V1_of m c r h1).trans rfl

/-- In the memory `M` every argument's buffer holds what it held at launch. -/
def Kept (M : (ℓ : Loc nD τ sig) → Buf (Elt F) ℓ) (c : Dev nD) : Prop :=
  M ((c.tc : Thread nD τ).loc main_arg0) = m ((c.tc : Thread nD τ).loc main_arg0)
  ∧ M ((c.tc : Thread nD τ).loc main_arg1) = m ((c.tc : Thread nD τ).loc main_arg1)
  ∧ M ((c.tc : Thread nD τ).loc main_arg2) = m ((c.tc : Thread nD τ).loc main_arg2)
  ∧ M ((c.tc : Thread nD τ).loc main_arg3) = m ((c.tc : Thread nD τ).loc main_arg3)
  ∧ M ((c.tc : Thread nD τ).loc main_arg4) = m ((c.tc : Thread nD τ).loc main_arg4)
  ∧ M ((c.tc : Thread nD τ).loc main_arg5) = m ((c.tc : Thread nD τ).loc main_arg5)
  ∧ M ((c.tc : Thread nD τ).loc main_arg6) = m ((c.tc : Thread nD τ).loc main_arg6)
  ∧ M ((c.tc : Thread nD τ).loc main_arg7) = m ((c.tc : Thread nD τ).loc main_arg7)
  ∧ M ((c.tc : Thread nD τ).loc main_arg8) = m ((c.tc : Thread nD τ).loc main_arg8)
  ∧ M ((c.tc : Thread nD τ).loc main_arg9) = m ((c.tc : Thread nD τ).loc main_arg9)
  ∧ M ((c.tc : Thread nD τ).loc main_arg10) = m ((c.tc : Thread nD τ).loc main_arg10)
  ∧ M ((c.tc : Thread nD τ).loc main_arg11) = m ((c.tc : Thread nD τ).loc main_arg11)
  ∧ M ((c.tc : Thread nD τ).loc main_arg12) = m ((c.tc : Thread nD τ).loc main_arg12)
  ∧ M ((c.tc : Thread nD τ).loc main_arg13) = m ((c.tc : Thread nD τ).loc main_arg13)

/-- A memory that holds the last valuation at every unscoped buffer keeps the arguments: each is unscoped. -/
theorem kept (M : (ℓ : Loc nD τ sig) → Buf (Elt F) ℓ) (c : Dev nD) (x)
    (hx : ∀ b ∈ Pipeline.ucRefs τ sig, M ((c : Thread nD τ).1, b) = U9 m a0 d0 c x b) : Kept m M c :=
  have k : ∀ r ∈ args, M ((c.tc : Thread nD τ).loc r) = m ((c.tc : Thread nD τ).loc r) := fun r hr =>
    (hx _ (Finset.mem_filter.mpr ⟨StableHlo.devRef_mem_tcRefs r,
      (by decide : ∀ r ∈ args, ¬ (Proc.devRef .tc r : DevRef τ sig).isScoped) r hr⟩)).trans (U9_arg m a0 d0 c x r hr)
  ⟨k _ (by decide), k _ (by decide), k _ (by decide), k _ (by decide), k _ (by decide), k _ (by decide), k _ (by decide), k _ (by decide), k _ (by decide), k _ (by decide), k _ (by decide), k _ (by decide), k _ (by decide), k _ (by decide)⟩

/-- Nothing after region 0 writes the attention weights. -/
theorem U9_v7_1 (c : Dev nD) (x) : U9 m a0 d0 c x main_v7_1 = x71 a0 d0 c :=
  (U9_of m a0 d0 c x main_v7_1 (by decide)).trans <| (U8_of m a0 d0 c x main_v7_1 (by decide)).trans <|
    (U7_of m a0 d0 c x main_v7_1 (by decide)).trans <| (U6_of m a0 d0 c main_v7_1 (by decide)).trans <|
    (U5_of m a0 d0 c main_v7_1 (by decide)).trans (U4_v7_1 m a0 d0 c)

theorem U8_v9 (c : Dev nD) (x) : U8 m a0 d0 c x main_v9 = x9 m a0 d0 c :=
  (U8_of m a0 d0 c x main_v9 (by decide)).trans <| (U7_of m a0 d0 c x main_v9 (by decide)).trans (U6_v9 m a0 d0 c)

/-- The last result is the new hidden state reshaped to `[1, 1, 1024]`. -/
theorem U9_v12 (c : Dev nD) (x) :
    U9 m a0 d0 c x main_v12 = shapeCast S1x1x1024 (x9 m a0 d0 c) shapeCasts_S1x1024_S1x1x1024 := by
  unfold U9
  simp only [StableHlo.after_cons, StableHlo.after_nil]
  rw [StableHlo.reshape_result, U8_v9]
  rfl

theorem U9_v12_apply (c : Dev nD) (x) (k : Fin 1024) :
    U9 m a0 d0 c x main_v12 (ix3 (0 : Fin 1) (0 : Fin 1) k) = x9 m a0 d0 c (ix2 (0 : Fin 1) k) := by
  rw [U9_v12]
  exact shapeCast_ab_1ab_apply _ _ _ _ _

/-- The last stretch does not write the log-softmax result. -/
theorem U9_v11 (c : Dev nD) (x) : U9 m a0 d0 c x main_v11 = (StableHlo.after hostOps4 (U7 m a0 d0 c x)) main_v11 :=
  U9_of m a0 d0 c x main_v11 (by decide)

end Cert.KernelIdeal.Run

end
-- ==== Proof.KI.Claims.lean ====
import proofs.«411147_j8194797600876_3_alg».proof.Proof.KI.RunR
import proofs.«411147_j8194797600876_3_alg».proof.Proof.KI.Inst
import proofs.«411147_j8194797600876_3_alg».proof.Proof.KI.Read
import proofs.«411147_j8194797600876_3_alg».proof.Proof.KI.R0
import proofs.«411147_j8194797600876_3_alg».proof.Proof.KI.R3

set_option maxRecDepth 16384

noncomputable section

namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
variable {F : FTy → Type} [FloatOps F]

local notation "𝕄" => MT nD τ sig Unit (Elt F) ℕ (Pipeline.UD sig nD τ) ℕ

variable (m : (ℓ : Loc nD τ sig) → Buf (Elt F) ℓ)

/-- The first region's proof data at the launch memory's table. -/
abbrev d0c : (c : Dev nD) → Dat τ (Elt F) Unit ℕ (Pipeline.UD sig nD τ) ℕ (cfg0 (a0 m)) c :=
  fun c => R0.dat0 (W3 m) (a0 m) (hchk m) c

theorem recorded_eq0 (V : (c : Dev nD) → (b : Ref sig .tc) → Buf (Elt F) ((c : Thread nD τ).loc b))
    (a : (pcfg0 (F := F)).Adm) (hchk : k0_chk1 (R0.tok0 a)) (c : Dev nD) (t : Fin ((cfg0 a).N + 1)) :
    (R0.dat0 V a hchk c).recorded t = Set.univ := rfl

theorem fgt3_true : fgt3 true = fun w => decide (w = 3) := by
  funext w; unfold fgt3
  first | exact Bool.true_and _ | exact Bool.and_true _ | rfl | simp
theorem fgt3_false : fgt3 false = fun _ => false := by
  funext w; unfold fgt3
  first | exact Bool.false_and _ | exact Bool.and_false _ | rfl | simp

/-- The last region's body obligation with the result's window forgotten, -/
theorem hb3_fgt (c : Dev nD) :
    ((R3.dat3 (W6 m (a0 m) (d0c m)) c).toRForget (fgt3 true)).BodyObligation (defs₀ (F := F)) 𝒱₀ () Set.univ := by
  rw [fgt3_true]
  exact (R3.body_obligation3_fgt (W6 m (a0 m) (d0c m)) c).toRForget

/-- and with every window stated, given that the contraction reads the weight block by rows. -/
theorem hb3_loc (hloc : R3.RowLocal3 F) (c : Dev nD) :
    ((R3.dat3 (W6 m (a0 m) (d0c m)) c).toRForget (fgt3 false)).BodyObligation (defs₀ (F := F)) 𝒱₀ () Set.univ := by
  rw [fgt3_false, Dat.toRForget_none]
  exact (R3.body_obligation3 (W6 m (a0 m) (d0c m)) hloc c).toR

/-- The run at the launch memory's table: the final memory holds the last valuation at some result `x` of the last region. -/
theorem run_at (fg : Bool)
    (hb3 : ∀ c, ((R3.dat3 (W6 m (a0 m) (d0c m)) c).toRForget (fgt3 fg)).BodyObligation (defs₀ (F := F)) 𝒱₀ () Set.univ)
    (ρ : Dev nD → PrngReg) :
    θ_run defs (onTc (τ := τ) (main (F := F))) ⟨m, fun _ => 0, ρ⟩ (fun r => ∀ c : Dev nD, ∃ x, P3 m fg (a0 m) (d0c m) c x ∧
      ∀ b ∈ Pipeline.ucRefs τ sig, r.2.mem ((c : Thread nD τ).1, b) = U9 m (a0 m) (d0c m) c x b) :=
  run_main m fg (a0 m) (d0c m)
    (fun c w => R0.A_eq0 (W3 m) (a0 m) (hchk m) c w)
    (fun c t => R0.Φ_eq0 (W3 m) (a0 m) (hchk m) c t)
    (fun c t => R0.owed_eq0 (W3 m) (a0 m) (hchk m) c t)
    (fun c t => recorded_eq0 (W3 m) (a0 m) (hchk m) c t)
    (fun c => R0.q_eq0 (W3 m) (a0 m) (hchk m) c)
    (fun c => R0.body_obligation0 (W3 m) (a0 m) (hchk m) c)
    (htbl m) hb3 ρ

/-- The program terminates without fault and every argument ends holding its launch contents; the last region's
    result is not read. -/
theorem frame (ρ : Dev nD → PrngReg) :
    θ_run defs (onTc (τ := τ) (main (F := F))) ⟨m, fun _ => 0, ρ⟩ (fun r => ∀ c : Dev nD, Kept m r.2.mem c) :=
  (θ_run defs _ _).mono (fun r h c => by
    obtain ⟨x, -, hx⟩ := h c
    exact kept m _ _ r.2.mem c x hx)
    (run_at m true (hb3_fgt m) ρ)

end Cert.KernelIdeal.Run

end
-- ==== Proof.Spec.lean ====
/- The decode step as functions on extended-real matrices: table row, split contractions with a bias, row softmax and
   log-softmax, the rectified combination, the gated recurrent cell, the vocabulary logits. -/
import Idealize.ShloMosaic.PureOps.Ideal
import Idealize.ShloMosaic.Lib.ValueIdx

noncomputable section

namespace Cert.Spec

open Idealize.ShloMosaic Idealize.ShloMosaic.ValueIdx

/-- `r × c` matrices and length-`n` vectors over the extended reals. -/
abbrev Mat (r c : Nat) : Type := (⟨2, ![r, c]⟩ : Shape).Idx → EReal
abbrev Vec1 (n : Nat) : Type := (⟨1, ![n]⟩ : Shape).Idx → EReal

/-- `T[t, :]` as a `1 × C` matrix. -/
def tableRow {N C : Nat} (T : Mat N C) (t : Fin N) : Mat 1 C :=
  fun i => T (ix2 t ⟨(i 1).val, idx2_lt1 i⟩)

/-- `(x · W[:, off : off + K]ᵀ)[j] = ∑ k, x[k] · W[j, off + k]`. -/
def dotRowsAt {K n C : Nat} (x : Mat 1 K) (W : Mat n C) (off : Nat) (h : off + K ≤ C) : Mat 1 n :=
  fun i => ∑ k : Fin K, x (ix2 0 k) * W (ix2 ⟨(i 1).val, idx2_lt1 i⟩ ⟨off + k.val, by have := k.isLt; omega⟩)

/-- `(x · M)[j] = ∑ k, x[k] · M[k, j]`. -/
def dotCols {K n : Nat} (x : Mat 1 K) (M : Mat K n) : Mat 1 n :=
  fun i => ∑ k : Fin K, x (ix2 0 k) * M (ix2 k ⟨(i 1).val, idx2_lt1 i⟩)

def addBias {n : Nat} (x : Mat 1 n) (b : Vec1 n) : Mat 1 n :=
  fun i => x i + b (ix1 ⟨(i 1).val, idx2_lt1 i⟩)

/-- `max` folded over the row from `⊥`. -/
def rowMax {n : Nat} (x : Mat 1 n) : EReal :=
  (Finset.univ : Finset (Fin n)).fold max ⊥ fun j => x (ix2 0 j)

/-- `exp (x − max x) / ∑ exp (x − max x)`. -/
def softmaxRow {n : Nat} (x : Mat 1 n) : Mat 1 n :=
  fun i => Ideal.div (Ideal.exp (x i - rowMax x)) (∑ j : Fin n, Ideal.exp (x (ix2 0 j) - rowMax x))

/-- `(x − max x) − log ∑ exp (x − max x)`. -/
def logSoftmaxRow {n : Nat} (x : Mat 1 n) : Mat 1 n :=
  fun i => (x i - rowMax x) - Ideal.log (∑ j : Fin n, Ideal.exp (x (ix2 0 j) - rowMax x))

/-- `[e, h] · Wᵀ + b`, the contraction split where `e` and `h` join. -/
def attnLogits (e h : Mat 1 1024) (W : Mat 2048 2048) (b : Vec1 2048) : Mat 1 2048 :=
  addBias (fun i => dotRowsAt e W 0 (by norm_num) i + dotRowsAt h W 1024 (by norm_num) i) b

def attnWeights (e h : Mat 1 1024) (W : Mat 2048 2048) (b : Vec1 2048) : Mat 1 2048 :=
  softmaxRow (attnLogits e h W b)

/-- `max ([e, ctx] · Cᵀ + b, 0)`, split the same way. -/
def combine (e ctx : Mat 1 1024) (C : Mat 1024 2048) (b : Vec1 1024) : Mat 1 1024 :=
  fun i => max (addBias (fun i => dotRowsAt e C 0 (by norm_num) i + dotRowsAt ctx C 1024 (by norm_num) i) b i) 0

def gates (x : Mat 1 1024) (W : Mat 3072 1024) (b : Vec1 3072) : Mat 1 3072 :=
  addBias (dotRowsAt x W 0 (by norm_num)) b

def gate (g : Mat 1 3072) (off : Nat) (h : off + 1024 ≤ 3072) : Mat 1 1024 :=
  fun i => g (ix2 0 ⟨off + (i 1).val, by have := idx2_lt1 i; omega⟩)

/-- `r = σ(iᵣ + hᵣ)`, `z = σ(i_z + h_z)`, `n = tanh (iₙ + r · hₙ)`, result `(1 − z) · n + z · h`, the gates three 1024-wide
    bands of `x · W_ihᵀ + b_ih` and `h · W_hhᵀ + b_hh`. -/
def gru (x h : Mat 1 1024) (Wih Whh : Mat 3072 1024) (bih bhh : Vec1 3072) : Mat 1 1024 :=
  fun i =>
    let gi := gates x Wih bih
    let gh := gates h Whh bhh
    let r := Ideal.logistic (gate gi 0 (by norm_num) i + gate gh 0 (by norm_num) i)
    let z := Ideal.logistic (gate gi 1024 (by norm_num) i + gate gh 1024 (by norm_num) i)
    let n := Ideal.tanh (gate gi 2048 (by norm_num) i + r * gate gh 2048 (by norm_num) i)
    (1 - z) * n + z * h i

def outLogits (h : Mat 1 1024) (O : Mat 50257 1024) (b : Vec1 50257) : Mat 1 50257 :=
  addBias (dotRowsAt h O 0 (by norm_num)) b

end Cert.Spec

end
-- ==== Proof.Val.Pay.lean ====
import proofs.«411147_j8194797600876_3_alg».proof.Proof.Gen.KernelIdeal.Skeleton
import proofs.«411147_j8194797600876_3_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.KernelIdeal.Pay

open Idealize.ShloMosaic Idealize.ShloMosaic.ValueIdx Cert.KernelIdeal Cert.KernelIdeal.Gen

theorem ofBits_negInf : FloatOps.ofBits (F := Ideal) .f32 0xFF800000#32 = (⊥ : EReal) :=
  (by simp [Ideal.ofBits, Ideal.ieee] : Ideal.ofBits .f32 0xFF800000#32 = ⊥)

/-- The row coordinate of a one-row index is `0`, so two functions that agree at every column are equal. -/
theorem row_ext {n : Nat} {α : Type} {f g : (⟨2, ![1, n]⟩ : Shape).Idx → α} (h : ∀ q, f (ix2 0 q) = g (ix2 0 q)) : f = g :=
  funext fun i => by rw [eq_ix2 i, Subsingleton.elim (α := Fin 1) (i 0) 0]; exact h _

/-- Into zero, a one-row product contracted against axis `c` of the right operand sums over the contraction coordinate. -/
theorem matmul_row {K n : Nat} {sr : Shape} (D : DotDims ⟨2, ![1, K]⟩ sr ⟨2, ![1, n]⟩)
    (hr : D.contr.rank = 1) (hs : D.contr.size ⟨0, by omega⟩ = K) (hl : D.lhsContracting = [1])
    {c : Fin sr.rank} (hc : D.rhsContracting = [c])
    {φ₁ φ₂ : FTy} (x : FVec Ideal ⟨2, ![1, K]⟩ φ₁) (W : FVec Ideal sr φ₂) (j : (⟨2, ![1, n]⟩ : Shape).Idx) (R : Fin K → sr.Idx)
    (hR : ∀ q k, (D.rhsIdx j q c).val = k.val → D.rhsIdx j q = R k) :
    matmul D none x W (constant (F := Ideal) ⟨2, ![1, n]⟩ .f32 0x00000000#32) j = ∑ k : Fin K, x (ix2 0 k) * W (R k) := by
  refine (Ideal.matmul_constant_zero_apply D none x W j).trans ?_
  rw [← Equiv.sum_comp (contrEquiv1 D K hr hs).symm]
  refine Finset.sum_congr rfl fun k _ => ?_
  have hk := contrEquiv1_symm_val D K hr hs k
  rw [hR _ k ((D.rhsIdx_val_of_single hc _ _).trans hk), eq_ix2 (D.lhsIdx _ _)]
  exact congrArg (fun a => x a * _) (congrArg₂ ix2 (Subsingleton.elim (α := Fin 1) _ _)
    (Fin.ext ((D.lhsIdx_val_of_single hl _ _).trans hk)))

theorem dotRowsAt_zero {K n : Nat} (x : Spec.Mat 1 K) (W : Spec.Mat n K) (h : 0 + K ≤ K) (p : Fin 1) (q : Fin n) :
    Spec.dotRowsAt x W 0 h (ix2 p q) = ∑ k : Fin K, x (ix2 0 k) * W (ix2 q k) := by
  simp only [Spec.dotRowsAt, Nat.zero_add]
  rfl

/-- Contracting against the rows of `W`: the right index at `(0, q)` and contraction coordinate `k` is `(q, k)`. -/
theorem rows_eq {K n : Nat} (wf) {φ₁ φ₂ : FTy} (x : FVec Ideal ⟨2, ![1, K]⟩ φ₁) (W : FVec Ideal ⟨2, ![n, K]⟩ φ₂) :
    matmul ⟨[1], [1], [0], [0], [], [], wf⟩ none x W (constant (F := Ideal) ⟨2, ![1, n]⟩ .f32 0x00000000#32)
      = Spec.dotRowsAt x W 0 (Nat.le_of_eq (Nat.zero_add K)) :=
  row_ext fun q => (matmul_row _ rfl rfl rfl rfl x W _ _ fun _ _ h =>
    (eq_ix2 _).trans (congrArg₂ ix2 (Fin.ext rfl) (Fin.ext h))).trans (dotRowsAt_zero x W _ 0 q).symm

/-- Contracting against the columns of `M`: the right index at `(0, q)` and contraction coordinate `k` is `(k, q)`. -/
theorem cols_eq {K n : Nat} (wf) {φ₁ φ₂ : FTy} (x : FVec Ideal ⟨2, ![1, K]⟩ φ₁) (M : FVec Ideal ⟨2, ![K, n]⟩ φ₂) :
    matmul ⟨[1], [0], [0], [1], [], [], wf⟩ none x M (constant (F := Ideal) ⟨2, ![1, n]⟩ .f32 0x00000000#32) = Spec.dotCols x M :=
  row_ext fun _ => matmul_row _ rfl rfl rfl rfl x M _ _ fun _ _ h =>
    (eq_ix2 _).trans (congrArg₂ ix2 (Fin.ext h) (Fin.ext rfl))

/-- Adding a one-row matrix entrywise is adding it as a bias vector read off its row. -/
theorem addf_bias {n : Nat} (X b : FVec Ideal ⟨2, ![1, n]⟩ .f32) :
    addf X b = Spec.addBias X fun j => b (ix2 0 ⟨(j 0).val, (j 0).isLt⟩) :=
  row_ext fun _ => rfl

theorem lift_row (j : S1.Idx) (k : Fin 2048) : reduces_S1x2048_S1.lift j k = ix2 (0 : Fin 1) k :=
  (eq_ix2 _).trans (congrArg₂ ix2 (Subsingleton.elim (α := Fin 1) _ _) (Fin.ext rfl))

/-- A single entry cast to a `1 × 1` block and broadcast along the row is the constant function. -/
theorem spread (c : FVec Ideal S1 .f32) :
    broadcastTo S1x2048 (shapeCast S1x1 c shapeCasts_S1_S1x1) broadcasts_S1x1_S1x2048 = fun _ => c (ix1 0) :=
  funext fun _ => (broadcastTo_apply _ _ _ (ix2 (0 : Fin 1) (0 : Fin 1)) (Fin.forall_fin_two.2 ⟨rfl, rfl⟩)).trans
    (shapeCast_a_1a_apply c _ 0 0)

/-- The fold of `max` from `⊥` over the reduced axis runs over the row's columns, and `max ⊥ m = m`. -/
theorem rowMax_fn (x : FVec Ideal S1x2048 .f32) :
    maximumf (broadcast S1 (Scalar.ofBits (F := Ideal) .f32 0xFF800000#32))
      (multiReduction (F := Ideal) .maximumf [1] S1 x 0xFF800000#32 reduces_S1x2048_S1 (.inl rfl) rfl) = fun _ => Spec.rowMax x := by
  funext j
  refine (congrArg (max _) (Ideal.multiReduction_maximumf_single x 0xFF800000#32 reduces_S1x2048_S1 (.inl rfl) rfl j)).trans ?_
  rw [ofBits_negInf, funext (lift_row j)]
  exact max_eq_right bot_le

/-- The reduced axis of a one-row matrix is indexed by its columns. -/
theorem rowSum_fn (x : FVec Ideal S1x2048 .f32) :
    multiReduction (F := Ideal) .add [1] S1 x 0x00000000#32 reduces_S1x2048_S1 (.inl rfl) rfl = fun _ => ∑ k : Fin 2048, x (ix2 0 k) :=
  funext fun j => (Ideal.multiReduction_add_single x _ reduces_S1x2048_S1 (.inl rfl) rfl j).trans
    (Finset.sum_congr rfl fun k _ => congrArg x (lift_row j k))

/-- Stage by stage: two row contractions, the bias, the row maximum, the exponentials and their sum. -/
theorem pay0_1 (v3 v4 : Vec Ideal S1x1024 .f32) (v8 v11 : Vec Ideal S2048x1024 .f32) (v15 : Vec Ideal S1x2048 .f32) :
    k0_pay1 v3 v4 v8 v11 v15
      = Spec.softmaxRow (Spec.addBias (fun i => Spec.dotRowsAt v3 v8 0 (by norm_num) i + Spec.dotRowsAt v4 v11 0 (by norm_num) i)
          (fun j => v15 (ix2 0 ⟨(j 0).val, (j 0).isLt⟩))) := by
  unfold k0_pay1 dot_S1x1024_S2048x1024_S1x2048_1_1_0_0_n_n
  simp only [shapeCast_self, spread]
  rw [rows_eq, rows_eq, addf_bias (addf _ _), rowMax_fn, rowSum_fn]
  rfl

theorem pay0_2 (v3 v4 : Vec Ideal S1x1024 .f32) (v8 v11 : Vec Ideal S2048x1024 .f32) (v15 : Vec Ideal S1x2048 .f32)
    (v30 : Vec Ideal S2048x1024 .f32) :
    k0_pay2 v3 v4 v8 v11 v15 v30 = Spec.dotCols (k0_pay1 v3 v4 v8 v11 v15) v30 :=
  cols_eq _ _ _

/-- Two row contractions and the bias, then `max · 0` entrywise. -/
theorem pay1 (v0 : Vec Ideal S1x1024 .f32) (v3 : Vec Ideal S1024x1024 .f32) (v6 : Vec Ideal S1x1024 .f32)
    (v9 : Vec Ideal S1024x1024 .f32) (v13 : Vec Ideal S1x1024 .f32) :
    k1_pay1 v0 v3 v6 v9 v13
      = fun i => max (Spec.addBias (fun i => Spec.dotRowsAt v0 v3 0 (by norm_num) i + Spec.dotRowsAt v6 v9 0 (by norm_num) i)
          (fun j => v13 (ix2 0 ⟨(j 0).val, (j 0).isLt⟩)) i) 0 := by
  unfold k1_pay1 dot_S1x1024_S1024x1024_S1x1024_1_1_0_0_n_n
  simp only [shapeCast_self]
  rw [rows_eq, rows_eq, addf_bias (addf _ _)]
  exact funext fun _ => congrArg (max _) Ideal.ofBits_zero_f32

/-- Columns `o ‥ o + 1024` of a 3072-wide row. -/
theorem slice_fn (o : Nat) (g : FVec Ideal S1x3072 .f32) (h : S1x3072.Slices ![0, o] S1x1024) :
    extractStridedSlice S1x1024 ![0, o] g h = Spec.gate g o (h.2 1) :=
  row_ext fun q => slice2_axis1_eq o g h 0 q

/-- Both gate rows are biased row contractions; their three cuts combine as in the cell, with the literal `1`. -/
theorem pay2 (v0 v2 : Vec Ideal S1x1024 .f32) (v5 : Vec Ideal S3072x1024 .f32) (v8 : Vec Ideal S1x3072 .f32)
    (v12 : Vec Ideal S3072x1024 .f32) (v15 : Vec Ideal S1x3072 .f32) :
    k2_pay1 v0 v2 v5 v8 v12 v15
      = Spec.gru v0 v2 v5 v12 (fun j => v8 (ix2 0 ⟨(j 0).val, (j 0).isLt⟩)) (fun j => v15 (ix2 0 ⟨(j 0).val, (j 0).isLt⟩)) := by
  unfold k2_pay1 dot_S1x1024_S3072x1024_S1x3072_1_1_0_0_n_n
  simp only [shapeCast_self, slice_fn]
  rw [rows_eq, rows_eq, addf_bias (Spec.dotRowsAt _ _ 0 _), addf_bias (Spec.dotRowsAt _ _ 0 _)]
  exact funext fun _ => congrArg (fun c => (c - _) * _ + _) Ideal.ofBits_one_f32

end Cert.KernelIdeal.Pay

end
-- ==== Proof.Val.Host.lean ====
import proofs.«411147_j8194797600876_3_alg».proof.Proof.KI.Clip
import proofs.«411147_j8194797600876_3_alg».proof.Proof.Gen.Pre_finite_inputs
import proofs.«411147_j8194797600876_3_alg».proof.Proof.Spec
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.HostVal

open Idealize.ShloMosaic Idealize.ShloMosaic.TcCoe Idealize.ShloMosaic.ValueIdx
open Idealize.SL.Sem
open Cert.KernelIdeal Cert.KernelIdeal.Gen

variable {F : FTy → Type} [FloatOps F]

variable (m : (ℓ : Loc nD τ sig) → Buf (Elt F) ℓ)

theorem V3_main_v0_apply (c : Dev nD) (u : Fin 1) (k : Fin 1024) :
    (V3 m c main_v0 : FVec F S1x1024 .f32) (ix2 u k)
      = (m ((c : Thread nD τ).loc main_arg1) : FVec F S1x1x1024 .f32) (ix3 (0 : Fin 1) u k) := by
  rw [V3_of m c main_v0 (by decide), V2_of m c main_v0 (by decide)]
  after_results
  exact shapeCast_1ab_ab_apply _ _ u k

theorem V3_main_v2_apply (c : Dev nD) (u : Fin 1) (k : Fin 2048) :
    (V3 m c main_v2 : FVec F S1x2048 .f32) (ix2 u k) = (m ((c : Thread nD τ).loc main_arg5) : FVec F S2048 .f32) (ix1 k) := by
  after_results; exact shapeCast_a_1a_apply _ _ u k

theorem V3_main_v3_apply (c : Dev nD) (u : Fin 1) (k : Fin 1024) :
    (V3 m c main_v3 : FVec F S1x1024 .f32) (ix2 u k) = (m ((c : Thread nD τ).loc main_arg7) : FVec F S1024 .f32) (ix1 k) := by
  after_results; exact shapeCast_a_1a_apply _ _ u k

theorem V3_main_v4_apply (c : Dev nD) (u : Fin 1) (k : Fin 3072) :
    (V3 m c main_v4 : FVec F S1x3072 .f32) (ix2 u k) = (m ((c : Thread nD τ).loc main_arg10) : FVec F S3072 .f32) (ix1 k) := by
  after_results; exact shapeCast_a_1a_apply _ _ u k

theorem V3_main_v5_apply (c : Dev nD) (u : Fin 1) (k : Fin 3072) :
    (V3 m c main_v5 : FVec F S1x3072 .f32) (ix2 u k) = (m ((c : Thread nD τ).loc main_arg11) : FVec F S3072 .f32) (ix1 k) := by
  after_results; exact shapeCast_a_1a_apply _ _ u k

theorem V3_main_v6_apply (c : Dev nD) (u : Fin 1) (k : Fin 50257) :
    (V3 m c main_v6 : FVec F S1x50257 .f32) (ix2 u k) = (m ((c : Thread nD τ).loc main_arg13) : FVec F S50257 .f32) (ix1 k) := by
  after_results; exact shapeCast_a_1a_apply _ _ u k

/-- An array that no operation before the first region writes still holds its launch contents there. -/
theorem V3_of_launch (c : Dev nD) (r : Ref sig .tc) (h : r ∉ hostOps0_W ∧ r ∉ hostOps0_1_W ∧ r ∉ hostOps0_2_W) :
    V3 m c r = m ((c : Thread nD τ).loc r) :=
  (V3_of m c r h.2.2).trans <| (V2_of m c r h.2.1).trans (V1_of m c r h.1)

theorem V3_main_arg2 (c : Dev nD) : V3 m c main_arg2 = m ((c : Thread nD τ).loc main_arg2) := V3_of_launch m c _ (by decide)
theorem V3_main_arg3 (c : Dev nD) : V3 m c main_arg3 = m ((c : Thread nD τ).loc main_arg3) := V3_of_launch m c _ (by decide)
theorem V3_main_arg4 (c : Dev nD) : V3 m c main_arg4 = m ((c : Thread nD τ).loc main_arg4) := V3_of_launch m c _ (by decide)
theorem V3_main_arg6 (c : Dev nD) : V3 m c main_arg6 = m ((c : Thread nD τ).loc main_arg6) := V3_of_launch m c _ (by decide)
theorem V3_main_arg8 (c : Dev nD) : V3 m c main_arg8 = m ((c : Thread nD τ).loc main_arg8) := V3_of_launch m c _ (by decide)
theorem V3_main_arg9 (c : Dev nD) : V3 m c main_arg9 = m ((c : Thread nD τ).loc main_arg9) := V3_of_launch m c _ (by decide)
theorem V3_main_arg12 (c : Dev nD) : V3 m c main_arg12 = m ((c : Thread nD τ).loc main_arg12) := V3_of_launch m c _ (by decide)

/-- Signed `0 ≤ w < 50257` puts `w` in the non-negative half, where it equals its unsigned value. -/
theorem word_in_range (w : BitVec 32) (h0 : IntOp.cmpi .sge w 0#32 = 1#1) (h1 : IntOp.cmpi .slt w 50257#32 = 1#1) :
    ∃ t : Fin 50257, w = BitVec.ofNat 32 t.val := by
  have e0 : (0#32 : BitVec 32).toInt = 0 := by decide
  have e1 : (50257#32 : BitVec 32).toInt = 50257 := by decide
  have hw := BitVec.toInt_eq_toNat_cond w
  rw [IntOp.cmpi_sge, e0] at h0
  rw [IntOp.cmpi_slt, e1] at h1
  exact ⟨⟨w.toNat, by split at hw <;> omega⟩, by rw [BitVec.ofNat_toNat, BitVec.setWidth_eq]⟩

/-- Of the precondition only its last conjunct is used: the token word is at least 0 and below 50257. -/
theorem token_of_pre [Cert.Pre_finite_inputs.Facts] (c : Dev nD)
    (hpre : Cert.Pre_finite_inputs.fn (F := F) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      = (fun _ => 1#1)) :
    ∃ t : Fin 50257, (m ((c : Thread nD τ).loc main_arg0) : IVec S1 32) (ix1 0) = BitVec.ofNat 32 t.val := by
  have e := congrFun hpre ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e65, e67⟩ := IntOp.andi_eq_one.1
    (Host.reduce_andi_eq_one _ _ _ _ ValueIdx.ix0 (IntOp.andi_eq_one.1 e).2 (ix1 0) (funext fun d => d.elim0))
  exact word_in_range _ e65 e67

def rowMaxB (x : FVec F S1x50257 .f32) : FVec F S1x50257 .f32 :=
  broadcastInDim S1x50257 ![0, 1] bcast_S1x1_S1x50257_0_1
    (broadcastInDim S1x1 ![0] bcast_S1_S1x1_0
      (maximumf (broadcastInDim S1 ![] bcast_S_S1 (constant (F := F) S_ .f32 0xFF800000#32))
        (Host.reduce FloatOps.maximumf x (constant (F := F) S_ .f32 0xFF800000#32) reducesTo_S1x50257_S1_d1 h_S_)))

def shifted (x : FVec F S1x50257 .f32) : FVec F S1x50257 .f32 := subf x (rowMaxB x)

def logSumB (x : FVec F S1x50257 .f32) : FVec F S1x50257 .f32 :=
  broadcastInDim S1x50257 ![0, 1] bcast_S1x1_S1x50257_0_1
    (Host.log (F := F)
      (broadcastInDim S1x1 ![0] bcast_S1_S1x1_0
        (Host.reduceAdd (F := F) (Host.exp (F := F) (shifted x)) (constant (F := F) S_ .f32 0x00000000#32)
          reducesTo_S1x50257_S1_d1 h_S_)))

/-- The fifteen operations after the last region as one function of the logits row. -/
def lsmTail (x : FVec F S1x50257 .f32) : FVec F S1x50257 .f32 := subf (shifted x) (logSumB x)

theorem ofBuf_toBuf {Val : EltTy → Type} {T : BufTy} (x : StableHlo.TRef sig T) (v : T.Contents Val) :
    x.ofBuf (x.toBuf v) = v := by
  obtain ⟨r, h, _, _⟩ := x
  subst h
  rfl

theorem after_hostOps4_lsmTail (W : Valuation τ sig (Elt F)) :
    (StableHlo.after (hostOps4 (F := F)) W main_v11 : FVec F S1x50257 .f32)
      = lsmTail (W main_v10 : FVec F S1x50257 .f32) := by
  after_results
  simp only [ofBuf_toBuf]
  rfl

theorem reduces_row : S1x50257.Reduces [1] S1 := by decide

theorem lift_row (q : S1.Idx) (k : Fin (S1x50257.size 1)) :
    reduces_row.lift q k = ix2 (0 : Fin 1) (⟨k.val, k.isLt⟩ : Fin 50257) := by
  funext c
  match c with
  | ⟨0, _⟩ => exact Subsingleton.elim (α := Fin 1) _ _
  | ⟨1, _⟩ => rfl

/-- `0xFF800000` is the f32 pattern of `−∞`. -/
theorem ofBits_neg_inf : Ideal.ofBits .f32 0xFF800000#32 = (⊥ : EReal) := by simp [Ideal.ofBits, Ideal.ieee]

/-- Folding `max` from `−∞` over the columns of the one row gives the row's maximum. -/
theorem hostReduce_max_row (x : FVec Ideal S1x50257 .f32) (q : S1.Idx) :
    Host.reduce FloatOps.maximumf x (constant (F := Ideal) S_ .f32 0xFF800000#32) reducesTo_S1x50257_S1_d1 h_S_ q
      = Spec.rowMax x := by
  rw [Host.reduce_eq_fold_single FloatOps.maximumf x _ reducesTo_S1x50257_S1_d1 reduces_row h_S_,
    show x ∘ reduces_row.lift q = fun k : Fin 50257 => x (ix2 0 k) from funext fun k => congrArg x (lift_row q k)]
  show Finset.fold max (Ideal.ofBits .f32 0xFF800000#32) _ _ = _
  rw [ofBits_neg_inf]; rfl

/-- A shape whose axes all have extent 1 has one index, so every entry of a broadcast out of it is that one value. -/
theorem bcast_one {α : Type} {s t : Shape} (hs : ∀ a, s.size a ≤ 1) (dims : Fin s.rank → Fin t.rank)
    (h : s.BroadcastsInDim t dims) (v : s.Idx → α) (i : t.Idx) (p : s.Idx) : broadcastInDim t dims h v i = v p :=
  congrArg v (funext fun a => (Fin.subsingleton_iff_le_one.2 (hs a)).elim _ _)

theorem shifted_apply (x : FVec Ideal S1x50257 .f32) (i : S1x50257.Idx) : shifted x i = x i - Spec.rowMax x := by
  unfold shifted rowMaxB
  rw [subf_apply, bcast_one (by decide) _ _ _ i (ix2 0 0), bcast_one (by decide) _ _ _ _ (ix1 0), maximumf_apply,
    hostReduce_max_row, broadcastInDim_scalar_apply, constant_apply, ofBits_neg_inf, max_bot_left]

theorem hostExp_apply {s : Shape} {φ : FTy} (a : FVec Ideal s φ) (i : s.Idx) : Host.exp (F := Ideal) a i = Ideal.exp (a i) := rfl
theorem hostLog_apply {s : Shape} {φ : FTy} (a : FVec Ideal s φ) (i : s.Idx) : Host.log (F := Ideal) a i = Ideal.log (a i) := rfl

/-- Entrywise the tail is `(x − max x) − log ∑ exp (x − max x)`. -/
theorem lsmTail_eq (x : FVec Ideal S1x50257 .f32) : lsmTail x = Spec.logSoftmaxRow x := by
  funext i
  unfold lsmTail logSumB Spec.logSoftmaxRow
  rw [subf_apply, shifted_apply, bcast_one (by decide) _ _ _ i (ix2 0 0), hostLog_apply, bcast_one (by decide) _ _ _ _ (ix1 0),
    hostReduceAdd_apply, Ideal.hostReduceAdd_single reducesTo_S1x50257_S1_d1 reduces_row, constant_apply, Ideal.ofBits_zero_f32,
    zero_add]
  refine congrArg (HSub.hSub _) (congrArg Ideal.log (Finset.sum_congr rfl fun k _ => ?_))
  rw [lift_row, hostExp_apply, shifted_apply]
  rfl

end Cert.KernelIdeal.HostVal

end
-- ==== Proof.Val.Bridge.lean ====
/- The kernel program's intermediate results are the specification's stages of the launch arrays: a contraction with a
   band of a matrix's columns is the contraction with the matrix over those columns, and each region's payload at the
   arrays it is entered with is the next stage. -/
import proofs.«411147_j8194797600876_3_alg».proof.Proof.KI.Fold
import proofs.«411147_j8194797600876_3_alg».proof.Proof.Val.Pay
import proofs.«411147_j8194797600876_3_alg».proof.Proof.Val.Host
import proofs.«411147_j8194797600876_3_alg».proof.Proof.Spec

set_option maxRecDepth 16384

noncomputable section

namespace Cert.KernelIdeal.Bridge

open Cert.KernelIdeal Cert.KernelIdeal.Gen Cert.KernelIdeal.Run
open Idealize.ShloMosaic Idealize.ShloMosaic.TcCoe Idealize.ShloMosaic.ValueIdx
open Idealize.SL.Sem
open Idealize.ShloMosaic.Pipeline (Dat)

theorem dotRowsAt_band {K n C : Nat} (x : Spec.Mat 1 K) (W : Spec.Mat n C) (B : Spec.Mat n K) (off : Nat) (h : off + K ≤ C)
    (h0 : 0 + K ≤ K) (hB : ∀ (j : Fin n) (k : Fin K), B (ix2 j k) = W (ix2 j ⟨off + k.val, by have := k.isLt; omega⟩)) :
    Spec.dotRowsAt x B 0 h0 = Spec.dotRowsAt x W off h := by
  funext i
  unfold Spec.dotRowsAt
  refine Finset.sum_congr rfl fun k _ => ?_
  refine congrArg (fun v => x (ix2 0 k) * v) ?_
  refine Eq.trans (congrArg (fun c : Fin K => B (ix2 ⟨(i 1).val, idx2_lt1 i⟩ c)) (Fin.ext (Nat.zero_add k.val))) ?_
  exact hB _ k

theorem dotRowsAt_band0 {K n C : Nat} (x : Spec.Mat 1 K) (W : Spec.Mat n C) (B : Spec.Mat n K) (h : 0 + K ≤ C)
    (h0 : 0 + K ≤ K) (hB : ∀ (j : Fin n) (k : Fin K), B (ix2 j k) = W (ix2 j ⟨k.val, by have := k.isLt; omega⟩)) :
    Spec.dotRowsAt x B 0 h0 = Spec.dotRowsAt x W 0 h :=
  dotRowsAt_band x W B 0 h h0 fun j k => (hB j k).trans
    (congrArg (fun c : Fin C => W (ix2 j c)) (Fin.ext (Nat.zero_add k.val).symm))

theorem biasRow_eq {n : Nat} (r : Spec.Mat 1 n) (b : Spec.Vec1 n) (hb : ∀ k : Fin n, r (ix2 0 k) = b (ix1 k)) :
    (fun j : (⟨1, ![n]⟩ : Shape).Idx => r (ix2 0 ⟨(j 0).val, (j 0).isLt⟩)) = b := by
  funext j
  exact (hb _).trans (congrArg b (eq_ix1 j).symm)

section Launch

variable (m : (ℓ : Loc nD τ sig) → Buf (Elt Ideal) ℓ) (c : Dev nD)

abbrev embT : Spec.Mat 50257 1024 := m ((c : Thread nD τ).loc main_arg3)
abbrev attnW : Spec.Mat 2048 2048 := m ((c : Thread nD τ).loc main_arg4)
abbrev attnB : Spec.Vec1 2048 := m ((c : Thread nD τ).loc main_arg5)
abbrev encO : Spec.Mat 2048 1024 := m ((c : Thread nD τ).loc main_arg2)
abbrev combW : Spec.Mat 1024 2048 := m ((c : Thread nD τ).loc main_arg6)
abbrev combB : Spec.Vec1 1024 := m ((c : Thread nD τ).loc main_arg7)
abbrev wIh : Spec.Mat 3072 1024 := m ((c : Thread nD τ).loc main_arg8)
abbrev wHh : Spec.Mat 3072 1024 := m ((c : Thread nD τ).loc main_arg9)
abbrev bIh : Spec.Vec1 3072 := m ((c : Thread nD τ).loc main_arg10)
abbrev bHh : Spec.Vec1 3072 := m ((c : Thread nD τ).loc main_arg11)
abbrev outW : Spec.Mat 50257 1024 := m ((c : Thread nD τ).loc main_arg12)
abbrev outB : Spec.Vec1 50257 := m ((c : Thread nD τ).loc main_arg13)

def hid : Spec.Mat 1 1024 :=
  fun i => (m ((c : Thread nD τ).loc main_arg1) : FVec Ideal S1x1x1024 .f32) (ix3 (0 : Fin 1) (0 : Fin 1) ⟨(i 1).val, idx2_lt1 i⟩)

abbrev sEmb (t : Fin 50257) : Spec.Mat 1 1024 := Spec.tableRow (embT m c) t
abbrev sAttn (t : Fin 50257) : Spec.Mat 1 2048 := Spec.attnWeights (sEmb m c t) (hid m c) (attnW m c) (attnB m c)
abbrev sCtx (t : Fin 50257) : Spec.Mat 1 1024 := Spec.dotCols (sAttn m c t) (encO m c)
abbrev sComb (t : Fin 50257) : Spec.Mat 1 1024 := Spec.combine (sEmb m c t) (sCtx m c t) (combW m c) (combB m c)
abbrev sGru (t : Fin 50257) : Spec.Mat 1 1024 := Spec.gru (sComb m c t) (hid m c) (wIh m c) (wHh m c) (bIh m c) (bHh m c)
abbrev sLogits (t : Fin 50257) : Spec.Mat 1 50257 := Spec.outLogits (sGru m c t) (outW m c) (outB m c)

theorem V3_v0_eq : (V3 m c main_v0 : Spec.Mat 1 1024) = hid m c := by
  funext i
  obtain ⟨u, k, rfl⟩ : ∃ (u : Fin 1) (k : Fin 1024), i = ix2 u k := ⟨i 0, i 1, eq_ix2 i⟩
  obtain rfl : u = 0 := Subsingleton.elim _ _
  exact HostVal.V3_main_v0_apply m c 0 k

theorem bias_v2 : (fun j : S2048.Idx => (V3 m c main_v2 : Spec.Mat 1 2048) (ix2 0 ⟨(j 0).val, (j 0).isLt⟩)) = attnB m c :=
  biasRow_eq _ _ fun k => HostVal.V3_main_v2_apply m c 0 k
theorem bias_v3 : (fun j : S1024.Idx => (V3 m c main_v3 : Spec.Mat 1 1024) (ix2 0 ⟨(j 0).val, (j 0).isLt⟩)) = combB m c :=
  biasRow_eq _ _ fun k => HostVal.V3_main_v3_apply m c 0 k
theorem bias_v4 : (fun j : S3072.Idx => (V3 m c main_v4 : Spec.Mat 1 3072) (ix2 0 ⟨(j 0).val, (j 0).isLt⟩)) = bIh m c :=
  biasRow_eq _ _ fun k => HostVal.V3_main_v4_apply m c 0 k
theorem bias_v5 : (fun j : S3072.Idx => (V3 m c main_v5 : Spec.Mat 1 3072) (ix2 0 ⟨(j 0).val, (j 0).isLt⟩)) = bHh m c :=
  biasRow_eq _ _ fun k => HostVal.V3_main_v5_apply m c 0 k

end Launch

section Stages

variable (m : (ℓ : Loc nD τ sig) → Buf (Elt Ideal) ℓ)
variable (a0 : (pcfg0 (F := Ideal)).Adm) (d0 : (c : Dev nD) → Dat τ (Elt Ideal) Unit ℕ (Pipeline.UD sig nD τ) ℕ (cfg0 a0) c)
variable (c : Dev nD)

structure Stage0 (t : Fin 50257) (e0 : Vec Ideal S1x1024 .f32) (wlo whi : Vec Ideal S2048x1024 .f32) : Prop where
  h70 : (x70 a0 d0 c : Vec Ideal S1x1024 .f32) = e0
  h71 : (x71 a0 d0 c : Vec Ideal S1x2048 .f32)
      = k0_pay1 e0 (V3 m c main_v0) wlo whi (V3 m c main_v2)
  h72 : (x72 a0 d0 c : Vec Ideal S1x1024 .f32)
      = k0_pay2 e0 (V3 m c main_v0) wlo whi (V3 m c main_v2) (V3 m c main_arg2)
  he : ∀ k : Fin 1024, e0 (ix2 (0 : Fin 1) k) = (V3 m c main_arg3 : Vec Ideal S50257x1024 .f32) (ix2 t k)
  hlo : ∀ (j : Fin 2048) (k : Fin 1024),
      wlo (ix2 j k) = (V3 m c main_arg4 : Vec Ideal S2048x2048 .f32) (ix2 j ⟨k.val, Nat.lt_of_lt_of_le k.isLt (by decide)⟩)
  hhi : ∀ (j : Fin 2048) (k : Fin 1024),
      whi (ix2 j k) = (V3 m c main_arg4 : Vec Ideal S2048x2048 .f32) (ix2 j ⟨1024 + k.val, Nat.add_lt_add_left k.isLt 1024⟩)

abbrev hid6 : S1x1024.Idx → EReal := W6 m a0 d0 c main_v9
abbrev outW6 : S50257x1024.Idx → EReal := W6 m a0 d0 c main_arg12
abbrev outB6 : S1x50257.Idx → EReal := W6 m a0 d0 c main_v6

variable {m a0 d0 c}
variable {t : Fin 50257} {e0 : Vec Ideal S1x1024 .f32} {wlo whi : Vec Ideal S2048x1024 .f32}

theorem e0_eq (S : Stage0 m a0 d0 c t e0 wlo whi) : e0 = sEmb m c t := by
  funext i
  obtain ⟨u, k, rfl⟩ : ∃ (u : Fin 1) (k : Fin 1024), i = ix2 u k := ⟨i 0, i 1, eq_ix2 i⟩
  obtain rfl : u = 0 := Subsingleton.elim _ _
  rw [S.he k, HostVal.V3_main_arg3]
  rfl

theorem x70_eq (S : Stage0 m a0 d0 c t e0 wlo whi) : (x70 a0 d0 c : Spec.Mat 1 1024) = sEmb m c t :=
  S.h70.trans (e0_eq S)

theorem wlo_band (S : Stage0 m a0 d0 c t e0 wlo whi) (x : Spec.Mat 1 1024) :
    Spec.dotRowsAt x wlo 0 (by norm_num) = Spec.dotRowsAt x (attnW m c) 0 (by norm_num) :=
  dotRowsAt_band0 x (attnW m c) wlo _ _ fun j k => by rw [S.hlo j k, HostVal.V3_main_arg4]
theorem whi_band (S : Stage0 m a0 d0 c t e0 wlo whi) (x : Spec.Mat 1 1024) :
    Spec.dotRowsAt x whi 0 (by norm_num) = Spec.dotRowsAt x (attnW m c) 1024 (by norm_num) :=
  dotRowsAt_band x (attnW m c) whi 1024 _ _ fun j k => by rw [S.hhi j k, HostVal.V3_main_arg4]

theorem x71_eq (S : Stage0 m a0 d0 c t e0 wlo whi) : (x71 a0 d0 c : Spec.Mat 1 2048) = sAttn m c t := by
  rw [S.h71, Pay.pay0_1, wlo_band S, whi_band S, bias_v2, V3_v0_eq, e0_eq S]
  rfl

theorem x72_eq (S : Stage0 m a0 d0 c t e0 wlo whi) : (x72 a0 d0 c : Spec.Mat 1 1024) = sCtx m c t := by
  rw [S.h72, Pay.pay0_2, ← S.h71, x71_eq S, HostVal.V3_main_arg2]

theorem W4_v7_0 (S : Stage0 m a0 d0 c t e0 wlo whi) : (W4 m a0 d0 c main_v7_0 : Spec.Mat 1 1024) = sEmb m c t :=
  (U4_v7_0 m a0 d0 c).trans (x70_eq S)
theorem W4_v7_2 (S : Stage0 m a0 d0 c t e0 wlo whi) : (W4 m a0 d0 c main_v7_2 : Spec.Mat 1 1024) = sCtx m c t :=
  (U4_v7_2 m a0 d0 c).trans (x72_eq S)
theorem W4_of (r : Ref sig .tc) (h : r ∉ ([main_v7_0, main_v7_1, main_v7_2] : List (Ref sig .tc))) :
    W4 m a0 d0 c r = V3 m c r := U4_of m a0 d0 c r h
theorem W5_of (r : Ref sig .tc) (h8 : r ≠ main_v8) (h : r ∉ ([main_v7_0, main_v7_1, main_v7_2] : List (Ref sig .tc))) :
    W5 m a0 d0 c r = V3 m c r := (U5_of m a0 d0 c r h8).trans (U4_of m a0 d0 c r h)
theorem W6_of (r : Ref sig .tc) (h9 : r ≠ main_v9) (h8 : r ≠ main_v8) (h : r ∉ ([main_v7_0, main_v7_1, main_v7_2] : List (Ref sig .tc))) :
    W6 m a0 d0 c r = V3 m c r := (U6_of m a0 d0 c r h9).trans (W5_of r h8 h)

theorem wLo1_band (x : Spec.Mat 1 1024) :
    Spec.dotRowsAt x (R1.wLo1 (W4 m a0 d0) c) 0 (by norm_num) = Spec.dotRowsAt x (combW m c) 0 (by norm_num) :=
  dotRowsAt_band0 x (combW m c) (R1.wLo1 (W4 m a0 d0) c) _ _ fun j k => by
    unfold R1.wLo1
    rw [W4_of main_arg6 (by decide), HostVal.V3_main_arg6]
theorem wHi1_band (x : Spec.Mat 1 1024) :
    Spec.dotRowsAt x (R1.wHi1 (W4 m a0 d0) c) 0 (by norm_num) = Spec.dotRowsAt x (combW m c) 1024 (by norm_num) :=
  dotRowsAt_band x (combW m c) (R1.wHi1 (W4 m a0 d0) c) 1024 _ _ fun j k => by
    unfold R1.wHi1
    rw [W4_of main_arg6 (by decide), HostVal.V3_main_arg6]

theorem x8_eq (S : Stage0 m a0 d0 c t e0 wlo whi) : (x8 m a0 d0 c : Spec.Mat 1 1024) = sComb m c t := by
  unfold x8
  rw [R1.final1_V, Pay.pay1, wLo1_band, wHi1_band, W4_of main_v3 (by decide), bias_v3, W4_v7_0 S, W4_v7_2 S]
  rfl

theorem x9_eq (S : Stage0 m a0 d0 c t e0 wlo whi) : (x9 m a0 d0 c : Spec.Mat 1 1024) = sGru m c t := by
  unfold x9
  rw [R2.final2, Pay.pay2, W5_of main_v4 (by decide) (by decide), bias_v4, W5_of main_v5 (by decide) (by decide), bias_v5,
    W5_of main_v0 (by decide) (by decide), V3_v0_eq, W5_of main_arg8 (by decide) (by decide), HostVal.V3_main_arg8,
    W5_of main_arg9 (by decide) (by decide), HostVal.V3_main_arg9,
    show W5 m a0 d0 c main_v8 = x8 m a0 d0 c from U5_v8 m a0 d0 c, x8_eq S]

theorem W6_v9 (S : Stage0 m a0 d0 c t e0 wlo whi) : (W6 m a0 d0 c main_v9 : Spec.Mat 1 1024) = sGru m c t :=
  (U6_v9 m a0 d0 c).trans (x9_eq S)

theorem x10_eq (S : Stage0 m a0 d0 c t e0 wlo whi) (x10 : Buf (Elt Ideal) ((c : Thread nD τ).loc main_v10))
    (h10 : ∀ j : Fin 50257, (x10 : S1x50257.Idx → EReal) (ix2 (0 : Fin 1) j)
      = (∑ k : Fin 1024, hid6 m a0 d0 c (ix2 (0 : Fin 1) k) * outW6 m a0 d0 c (ix2 j k)) + outB6 m a0 d0 c (ix2 (0 : Fin 1) j)) :
    (x10 : Spec.Mat 1 50257) = sLogits m c t := by
  funext i
  obtain ⟨u, j, rfl⟩ : ∃ (u : Fin 1) (j : Fin 50257), i = ix2 u j := ⟨i 0, i 1, eq_ix2 i⟩
  obtain rfl : u = 0 := Subsingleton.elim _ _
  rw [h10 j]
  unfold hid6 outW6 outB6
  rw [W6_v9 S, W6_of main_arg12 (by decide) (by decide) (by decide), HostVal.V3_main_arg12,
    W6_of main_v6 (by decide) (by decide) (by decide), HostVal.V3_main_v6_apply m c 0 j]
  show _ = Spec.dotRowsAt (sGru m c t) (outW m c) 0 (by norm_num) (ix2 0 j) + outB m c (ix1 j)
  rw [Pay.dotRowsAt_zero]

theorem out_eq (x10 : Buf (Elt Ideal) ((c : Thread nD τ).loc main_v10))
    (h10 : (x10 : Spec.Mat 1 50257) = sLogits m c t)
    (htail : ∀ U : Valuation τ sig (Elt Ideal),
      (StableHlo.after hostOps4 U main_v11 : Spec.Mat 1 50257) = Spec.logSoftmaxRow (U main_v10 : Spec.Mat 1 50257)) :
    (U8 m a0 d0 c x10 main_v11 : Spec.Mat 1 50257) = Spec.logSoftmaxRow (sLogits m c t) := by
  unfold U8
  rw [htail, U7_v10, h10]

end Stages

end Cert.KernelIdeal.Bridge

end
-- ==== Proof.Val.Ref.lean ====
import proofs.«411147_j8194797600876_3_alg».proof.Proof.RefReadP
import proofs.«411147_j8194797600876_3_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.ValueIdx

theorem negInf_word : Ideal.ofBits .f32 0xFF800000#32 = ⊥ := by
  simp [Ideal.ofBits, Ideal.ieee]

theorem toInt_token (t : Fin 50257) : (BitVec.ofNat 32 t.val).toInt = (t.val : Int) := by
  have h1 : (BitVec.ofNat 32 t.val).toNat = t.val := by
    rw [BitVec.toNat_ofNat]; exact Nat.mod_eq_of_lt (by omega)
  rw [BitVec.toInt_eq_toNat_of_lt (by rw [h1]; omega), h1]

/-- Two one-row matrices that agree at every column are equal. -/
theorem row_ext {n : Nat} {f g : Spec.Mat 1 n} (h : ∀ q, f (ix2 0 q) = g (ix2 0 q)) : f = g := by
  funext i
  obtain ⟨p, q, rfl⟩ : ∃ (p : Fin 1) (q : Fin n), i = ix2 p q := ⟨i 0, i 1, eq_ix2 i⟩
  obtain rfl : p = 0 := Subsingleton.elim _ _
  exact h q

/-- An index of a one-row matrix is named by its column. -/
theorem row_idx {n : Nat} (j : (⟨2, ![1, n]⟩ : Shape).Idx) (c : Nat) (hc : (j 1).val = c) :
    j = ix2 0 ⟨c, hc ▸ idx2_lt1 j⟩ :=
  (eq_ix2 j).trans (congrArg₂ ix2 (Subsingleton.elim (α := Fin 1) _ _) (Fin.ext hc))

/-- Gathering one row of a table reads the table at the clamped start index and the same column. -/
theorem gather_row (x : S50257x1024.Idx → EReal) (idx : IVec S1x1 32) (j : S1x1024.Idx) (r : Fin 50257)
    (hr : ∀ p, min (idx p).toInt.toNat 50256 = r.val) :
    Host.gather gather_S50257x1024_S1x1_S1x1024_1_0_n_n_0_1_11024 x idx j
      = x (ix2 r (⟨(j 1).val, idx2_lt1 j⟩ : Fin 1024)) := by
  unfold Host.gather
  refine congrArg x (funext fun a => Fin.ext ?_)
  match a with
  | 0 =>
    show _ + _ + _ = _
    rw [GatherDims.batchCoord_eq_zero _ _ _ (by decide), GatherDims.offCoord_eq_zero _ _ _ (by decide)]
    unfold GatherDims.start
    rw [dif_pos (by decide)]
    exact hr _
  | 1 =>
    show _ + _ + _ = _
    rw [GatherDims.batchCoord_eq_zero _ _ _ (by decide)]
    unfold GatherDims.start GatherDims.offCoord
    rw [dif_neg (by decide), dif_pos (by decide)]
    exact Nat.zero_add _

/-- The hidden state's single row. -/
abbrev hidRow (x1 : (⟨3, ![1, 1, 1024]⟩ : Shape).Idx → EReal) : Spec.Mat 1 1024 :=
  fun i => x1 (ix3 0 0 ⟨(i 1).val, idx2_lt1 i⟩)

theorem col_zero_add {n C : Nat} (W : Spec.Mat n C) (q : Fin n) (k : Fin C) (h : 0 + k.val < C) :
    W (ix2 q k) = W (ix2 q ⟨0 + k.val, h⟩) :=
  congrArg (fun c => W (ix2 q c)) (Fin.ext (Nat.zero_add _).symm)

/-- A sum of products of a row's entries with the entries of a weight's row from column `off` on is the specification's contraction. -/
theorem dot_at {K n C : Nat} (u : Spec.Mat 1 K) (W : Spec.Mat n C) (off : Nat) (h : off + K ≤ C) (q : Fin n)
    (u' w' : Fin K → EReal) (hu : ∀ k, u' k = u (ix2 0 k))
    (hw : ∀ k, w' k = W (ix2 q ⟨off + k.val, by have := k.isLt; omega⟩)) :
    ∑ k, u' k * w' k = Spec.dotRowsAt u W off h (ix2 0 q) :=
  Finset.sum_congr rfl fun k _ => congrArg₂ (· * ·) (hu k) (hw k)

/-- With the bias entry added it is the specification's `x · Wᵀ + b` at that column. -/
theorem dot_bias {K n : Nat} (u : Spec.Mat 1 K) (W : Spec.Mat n K) (b : Spec.Vec1 n) (q : Fin n)
    (u' w' : Fin K → EReal) (b' : EReal) (hu : ∀ k, u' k = u (ix2 0 k)) (hw : ∀ k, w' k = W (ix2 q k))
    (hb : b' = b (ix1 q)) :
    (∑ k, u' k * w' k) + b' = Spec.addBias (Spec.dotRowsAt u W 0 (by omega)) b (ix2 0 q) :=
  congrArg₂ (· + ·) (dot_at u W 0 _ q u' w' hu fun k => (hw k).trans (col_zero_add W q k _)) hb

/-- The same for a row joined from two halves: the contraction splits where the halves meet. -/
theorem join_dot_bias {n : Nat} (a b : Spec.Mat 1 1024) (W : Spec.Mat n 2048) (c : Spec.Vec1 n) (q : Fin n)
    (u' w' : Fin 2048 → EReal) (c' : EReal)
    (hu : ∀ k, u' k = concatenate S1x2048 1 [⟨S1x1024, a⟩, ⟨S1x1024, b⟩] concatenates_S1x1024_S1x1024_S1x2048_d1 (ix2 0 k))
    (hw : ∀ k, w' k = W (ix2 q k)) (hc : c' = c (ix1 q)) :
    (∑ k, u' k * w' k) + c'
      = Spec.addBias (fun i => Spec.dotRowsAt a W 0 (by norm_num) i + Spec.dotRowsAt b W 1024 (by norm_num) i) c (ix2 0 q) := by
  rw [show ∑ k, u' k * w' k = _ from Fin.sum_univ_add (a := 1024) (b := 1024) _]
  exact congrArg₂ (· + ·) (congrArg₂ (· + ·)
    (dot_at a W 0 _ q _ _ (fun k => (hu _).trans (concatenate_pair_apply_left (t := S1x2048) 1 a b _ _ rfl (ix2 0 k)
      fun c => by match c with | ⟨0, _⟩ => rfl | ⟨1, _⟩ => rfl)) fun k => (hw _).trans (col_zero_add W q _ _))
    (dot_at b W 1024 _ q _ _ (fun k => (hu _).trans (concatenate_pair_apply_right (t := S1x2048) 1 a b _ _ rfl rfl (ix2 0 k)
      (fun c hc => by match c with | ⟨0, _⟩ => rfl | ⟨1, _⟩ => exact absurd rfl hc)
      (by show k.val + 1024 = 1024 + k.val; omega))) fun k => hw _)) hc

/-- Folding `max` over a row from `-inf`, and once more against `-inf`, gives the row's maximum. -/
theorem max_stage {n : Nat} (y : FVec Ideal (⟨2, ![1, n]⟩ : Shape) .f32) (init : FVec Ideal S_ .f32)
    (h : (⟨2, ![1, n]⟩ : Shape).Reduces [1] S1) (hu : 0 < S_.numel) (hi : init (Shape.Idx.first hu) = (⊥ : EReal)) (j : S1.Idx) :
    FloatOps.maximumf (F := Ideal) (FloatOps.ofBits .f32 0xFF800000#32) (Host.reduce FloatOps.maximumf y init h.reducesTo hu j)
      = Spec.rowMax y := by
  rw [Host.reduce_eq_fold_single FloatOps.maximumf y init _ h hu, hi, Ideal.maximumf_def, Ideal.ofBits_def, negInf_word]
  exact (max_bot_left _).trans (congrArg (Finset.fold max (⊥ : EReal) · Finset.univ) (funext fun k => congrArg y (row_idx _ k.val rfl)))

section Stages
variable (x0 : (⟨S1, .i32⟩ : BufTy).Contents (Elt Ideal)) (x1 : (⟨S1x1x1024, .f32⟩ : BufTy).Contents (Elt Ideal))
  (x2 : (⟨S2048x1024, .f32⟩ : BufTy).Contents (Elt Ideal)) (x3 : (⟨S50257x1024, .f32⟩ : BufTy).Contents (Elt Ideal))
  (x4 : (⟨S2048x2048, .f32⟩ : BufTy).Contents (Elt Ideal)) (x5 : (⟨S2048, .f32⟩ : BufTy).Contents (Elt Ideal))
  (x6 : (⟨S1024x2048, .f32⟩ : BufTy).Contents (Elt Ideal)) (x7 : (⟨S1024, .f32⟩ : BufTy).Contents (Elt Ideal))
  (x8 x9 : (⟨S3072x1024, .f32⟩ : BufTy).Contents (Elt Ideal)) (x10 x11 : (⟨S3072, .f32⟩ : BufTy).Contents (Elt Ideal))
  (x12 : (⟨S50257x1024, .f32⟩ : BufTy).Contents (Elt Ideal)) (x13 : (⟨S50257, .f32⟩ : BufTy).Contents (Elt Ideal))
  (t : Fin 50257) (ht : x0 (ix1 0) = BitVec.ofNat 32 t.val)

theorem hid_eq : val_main_v7 x1 = hidRow x1 := by
  funext i
  rw [val_main_v7_apply]
  refine congrArg x1 ((eq_ix3 _).trans (congrArg (ix3 0 0) (Fin.ext ?_)))
  have := idx2_lt0 i; have := idx2_lt1 i
  show ((i 0).val * 1024 + (i 1).val) % 1024 = (i 1).val
  omega

theorem logits_eq : val_main_v12 x0 x1 x3 x4 x5
    = Spec.attnLogits (val_main_v6 x0 x3) (val_main_v7 x1) x4 x5 :=
  row_ext fun q => by
    rw [val_main_v12_apply, val_main_v10_apply, val_main_v11_apply, Ideal.addf_def]
    exact join_dot_bias _ _ x4 x5 q _ _ _ (fun k => congrArg _ (eq_ix2 _))
      (fun k => (val_main_v9_apply x4 _).trans (congrArg x4 (eq_ix2 _))) (congrArg x5 (eq_ix1 _))

theorem attn_max_eq (j : S1.Idx) :
    val_main_v15 x0 x1 x3 x4 x5 j = Spec.rowMax (val_main_v12 x0 x1 x3 x4 x5) := by
  rw [val_main_v15_apply, val_main_v14_apply, val_main_cst_1_apply]
  exact max_stage _ _ (by decide) h_S_ negInf_word j

theorem weights_stage :
    val_main_v23 x0 x1 x3 x4 x5 = Spec.softmaxRow (val_main_v12 x0 x1 x3 x4 x5) :=
  row_ext fun q => by
    unfold Spec.softmaxRow
    simp only [val_main_v23_apply, val_main_v22_apply, val_main_v21_apply, val_main_v20_apply, val_main_cst_2_apply,
      val_main_v19_apply, val_main_v18_apply, val_main_v17_apply, val_main_v16_apply, attn_max_eq, Ideal.hostDivf_def,
      Ideal.hostUnary_exp_def, Ideal.subf_def, Ideal.ofBits_def, Ideal.ofBits_zero_f32, zero_add,
      show ∀ k, idx_main_v20 (idx_main_v21 (idx_main_v22 (ix2 (0 : Fin 1) q))) k = ix2 0 k from fun k => eq_ix2 _]

theorem context_stage :
    val_main_v24 x0 x1 x2 x3 x4 x5 = Spec.dotCols (val_main_v23 x0 x1 x3 x4 x5) x2 :=
  row_ext fun q => by
    rw [val_main_v24_apply]
    exact Finset.sum_congr rfl fun k _ => congrArg₂ (· * ·) (congrArg _ (eq_ix2 _)) (congrArg x2 (eq_ix2 _))

theorem combined_stage : val_main_v30 x0 x1 x2 x3 x4 x5 x6 x7
    = Spec.combine (val_main_v6 x0 x3) (val_main_v24 x0 x1 x2 x3 x4 x5) x6 x7 :=
  row_ext fun q => by
    rw [val_main_v30_apply, val_main_v29_apply, val_main_v27_apply, val_main_v28_apply, val_main_call0_v0_apply,
      val_main_call0_cst_apply, Ideal.addf_def, Ideal.maximumf_def, Ideal.ofBits_def, Ideal.ofBits_zero_f32]
    exact congrArg (max · 0) (join_dot_bias _ _ x6 x7 q _ _ _ (fun k => congrArg _ (eq_ix2 _))
      (fun k => (val_main_v26_apply x6 _).trans (congrArg x6 (eq_ix2 _))) (congrArg x7 (eq_ix1 _)))

theorem gates_in_stage : val_main_v34 x0 x1 x2 x3 x4 x5 x6 x7 x8 x10
    = Spec.gates (val_main_v30 x0 x1 x2 x3 x4 x5 x6 x7) x8 x10 :=
  row_ext fun q => by
    rw [val_main_v34_apply, val_main_v32_apply, val_main_v33_apply, Ideal.addf_def]
    exact dot_bias _ x8 x10 q _ _ _ (fun k => congrArg _ (eq_ix2 _))
      (fun k => (val_main_v31_apply x8 _).trans (congrArg x8 (eq_ix2 _))) (congrArg x10 (eq_ix1 _))

theorem gates_hid_stage : val_main_v38 x1 x9 x11 = Spec.gates (val_main_v7 x1) x9 x11 :=
  row_ext fun q => by
    rw [val_main_v38_apply, val_main_v36_apply, val_main_v37_apply, Ideal.addf_def]
    exact dot_bias _ x9 x11 q _ _ _ (fun k => congrArg _ (eq_ix2 _))
      (fun k => (val_main_v35_apply x9 _).trans (congrArg x9 (eq_ix2 _))) (congrArg x11 (eq_ix1 _))

/-- `1 / (1 + exp (-x))` is the logistic function, so the cell's two gates are the specification's. -/
theorem gru_stage : val_main_v66 x0 x1 x2 x3 x4 x5 x6 x7 x8 x9 x10 x11
    = Spec.gru (val_main_v30 x0 x1 x2 x3 x4 x5 x6 x7) (val_main_v7 x1) x8 x9 x10 x11 :=
  row_ext fun q => by
    simp only [val_main_v66_apply, val_main_v65_apply, val_main_v64_apply, val_main_v63_apply, val_main_v62_apply,
      val_main_cst_7_apply, val_main_v61_apply, val_main_v60_apply, val_main_v59_apply, val_main_v58_apply,
      val_main_v57_apply, val_main_cst_6_apply, val_main_v56_apply, val_main_v55_apply, val_main_cst_5_apply,
      val_main_v54_apply, val_main_v53_apply, val_main_v52_apply, val_main_v51_apply, val_main_v50_apply,
      val_main_cst_4_apply, val_main_v49_apply, val_main_v48_apply, val_main_cst_3_apply, val_main_v47_apply,
      val_main_v46_apply, val_main_v45_apply, val_main_v44_apply, val_main_v43_apply, val_main_v42_apply,
      val_main_v41_apply, val_main_v40_apply, val_main_v39_apply, gates_in_stage, gates_hid_stage,
      Ideal.addf_def, Ideal.subf_def, Ideal.mulf_def, Ideal.hostDivf_def, Ideal.hostUnary_exp_def,
      Ideal.hostUnary_tanh_def, Ideal.hostNegf_def, Ideal.negf_def, Ideal.ofBits_def, Ideal.ofBits_one_f32]
    unfold Spec.gru Spec.gate Ideal.logistic
    rw [row_idx (idx_main_v39 (ix2 0 q)) _ (Nat.zero_add _).symm, row_idx (idx_main_v40 (ix2 0 q)) _ rfl,
      row_idx (idx_main_v41 (ix2 0 q)) _ rfl, row_idx (idx_main_v42 (ix2 0 q)) _ (Nat.zero_add _).symm,
      row_idx (idx_main_v43 (ix2 0 q)) _ rfl, row_idx (idx_main_v44 (ix2 0 q)) _ rfl]

theorem out_logits_stage : val_main_v70 x0 x1 x2 x3 x4 x5 x6 x7 x8 x9 x10 x11 x12 x13
    = Spec.outLogits (val_main_v66 x0 x1 x2 x3 x4 x5 x6 x7 x8 x9 x10 x11) x12 x13 :=
  row_ext fun q => by
    rw [val_main_v70_apply, val_main_v68_apply, val_main_v69_apply, Ideal.addf_def]
    exact dot_bias _ x12 x13 q _ _ _ (fun k => congrArg _ (eq_ix2 _))
      (fun k => (val_main_v67_apply x12 _).trans (congrArg x12 (eq_ix2 _))) (congrArg x13 (eq_ix1 _))

theorem out_max_eq (j : S1.Idx) : val_main_call1_v2 x0 x1 x2 x3 x4 x5 x6 x7 x8 x9 x10 x11 x12 x13 j
    = Spec.rowMax (val_main_v70 x0 x1 x2 x3 x4 x5 x6 x7 x8 x9 x10 x11 x12 x13) := by
  rw [val_main_call1_v2_apply, val_main_call1_v1_apply, val_main_call1_cst_0_apply]
  exact max_stage _ _ (by decide) h_S_ negInf_word j

theorem log_softmax_stage : val_main_v71 x0 x1 x2 x3 x4 x5 x6 x7 x8 x9 x10 x11 x12 x13
    = Spec.logSoftmaxRow (val_main_v70 x0 x1 x2 x3 x4 x5 x6 x7 x8 x9 x10 x11 x12 x13) :=
  row_ext fun q => by
    unfold Spec.logSoftmaxRow
    simp only [val_main_v71_apply, val_main_call1_v10_apply, val_main_call1_v9_apply, val_main_call1_v8_apply,
      val_main_call1_v7_apply, val_main_call1_cst_1_apply, val_main_call1_v6_apply, val_main_call1_v5_apply,
      val_main_call1_v4_apply, val_main_call1_v3_apply, out_max_eq, Ideal.hostUnary_exp_def, Ideal.hostUnary_log_def,
      Ideal.subf_def, Ideal.ofBits_def, Ideal.ofBits_zero_f32, zero_add,
      show ∀ k, idx_main_call1_v7 (idx_main_call1_v8 (idx_main_call1_v10 (ix2 (0 : Fin 1) q))) k = ix2 0 k from fun k => eq_ix2 _]

include ht

/-- The token, in range, is not negative, so the gather's start index is the token itself. -/
theorem start_word (i : S1x1.Idx) : val_main_v5 x0 i = BitVec.ofNat 32 t.val := by
  have e : (BitVec.ofNat 32 t.val).slt 0#32 = false := by simp [BitVec.slt, toInt_token t]
  rw [val_main_v5_apply, val_main_v4_apply, val_main_v1_apply, show idx_main_v5 i = ix1 0 from eq_ix1 _, ht,
    val_main_v0_apply, val_main_c_apply,
    show IntOp.cmpi .slt (BitVec.ofNat 32 t.val) 0#32 = 0#1 from congrArg BitVec.ofBool e, select_zero]

theorem emb_eq : val_main_v6 x0 x3 = Spec.tableRow x3 t :=
  funext fun i => gather_row x3 _ i t fun p => by
    rw [start_word x0 t ht, toInt_token t]; have := t.isLt; omega

theorem hidden_row_eq : val_main_v66 x0 x1 x2 x3 x4 x5 x6 x7 x8 x9 x10 x11
    = Spec.gru (Spec.combine (Spec.tableRow x3 t)
        (Spec.dotCols (Spec.attnWeights (Spec.tableRow x3 t) (hidRow x1) x4 x5) x2) x6 x7) (hidRow x1) x8 x9 x10 x11 := by
  rw [gru_stage, combined_stage, context_stage, weights_stage, logits_eq, emb_eq x0 x3 t ht, hid_eq]; rfl

theorem out_eq : val_main_v71 x0 x1 x2 x3 x4 x5 x6 x7 x8 x9 x10 x11 x12 x13
      = Spec.logSoftmaxRow (Spec.outLogits
          (Spec.gru (Spec.combine (Spec.tableRow x3 t)
              (Spec.dotCols (Spec.attnWeights (Spec.tableRow x3 t) (hidRow x1) x4 x5) x2) x6 x7)
            (hidRow x1) x8 x9 x10 x11) x12 x13) := by
  rw [log_softmax_stage, out_logits_stage, hidden_row_eq x0 x1 x2 x3 x4 x5 x6 x7 x8 x9 x10 x11 t ht]

end Stages

section Run
open Idealize.ShloMosaic.TcCoe Idealize.SL.Sem
variable (m : (ℓ : Loc nD τ sig) → Buf (Elt Ideal) ℓ) (c : Dev nD)

theorem ref_weights (t : Fin 50257) (ht : m ((c.tc : Thread nD τ).loc main_arg0) (ix1 0) = BitVec.ofNat 32 t.val) :
    Cert.ReferenceIdeal.ValueP.res_out2 (F := Ideal) m c = (Spec.attnWeights (Spec.tableRow (m ((c.tc : Thread nD τ).loc main_arg3)) t) (hidRow (m ((c.tc : Thread nD τ).loc main_arg1))) (m ((c.tc : Thread nD τ).loc main_arg4)) (m ((c.tc : Thread nD τ).loc main_arg5))) :=
  (val_main_v23_eq m c).trans (by rw [weights_stage, logits_eq, emb_eq _ _ t ht, hid_eq]; rfl)

theorem ref_hidden (t : Fin 50257) (ht : m ((c.tc : Thread nD τ).loc main_arg0) (ix1 0) = BitVec.ofNat 32 t.val)
    (k : Fin 1024) :
    (Cert.ReferenceIdeal.ValueP.res_out1 (F := Ideal) m c : S1x1x1024.Idx → EReal) (ix3 0 0 k) = (Spec.gru (Spec.combine (Spec.tableRow (m ((c.tc : Thread nD τ).loc main_arg3)) t) (Spec.dotCols (Spec.attnWeights (Spec.tableRow (m ((c.tc : Thread nD τ).loc main_arg3)) t) (hidRow (m ((c.tc : Thread nD τ).loc main_arg1))) (m ((c.tc : Thread nD τ).loc main_arg4)) (m ((c.tc : Thread nD τ).loc main_arg5))) (m ((c.tc : Thread nD τ).loc main_arg2))) (m ((c.tc : Thread nD τ).loc main_arg6)) (m ((c.tc : Thread nD τ).loc main_arg7)))
          (hidRow (m ((c.tc : Thread nD τ).loc main_arg1))) (m ((c.tc : Thread nD τ).loc main_arg8)) (m ((c.tc : Thread nD τ).loc main_arg9)) (m ((c.tc : Thread nD τ).loc main_arg10)) (m ((c.tc : Thread nD τ).loc main_arg11))) (ix2 0 k) :=
  (congrFun (val_main_v72_eq m c) (ix3 0 0 k)).trans <| (val_main_v72_apply _ _ _ _ _ _ _ _ _ _ _ _ _).trans <|
    (congrArg _ (eq_ix2 _)).trans (congrFun (hidden_row_eq _ _ _ _ _ _ _ _ _ _ _ _ t ht) _)

theorem ref_out (t : Fin 50257) (ht : m ((c.tc : Thread nD τ).loc main_arg0) (ix1 0) = BitVec.ofNat 32 t.val) :
    Cert.ReferenceIdeal.ValueP.res_out0 (F := Ideal) m c
      = Spec.logSoftmaxRow (Spec.outLogits (Spec.gru (Spec.combine (Spec.tableRow (m ((c.tc : Thread nD τ).loc main_arg3)) t) (Spec.dotCols (Spec.attnWeights (Spec.tableRow (m ((c.tc : Thread nD τ).loc main_arg3)) t) (hidRow (m ((c.tc : Thread nD τ).loc main_arg1))) (m ((c.tc : Thread nD τ).loc main_arg4)) (m ((c.tc : Thread nD τ).loc main_arg5))) (m ((c.tc : Thread nD τ).loc main_arg2))) (m ((c.tc : Thread nD τ).loc main_arg6)) (m ((c.tc : Thread nD τ).loc main_arg7)))
          (hidRow (m ((c.tc : Thread nD τ).loc main_arg1))) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg12)) (m ((c.tc : Thread nD τ).loc main_arg13))) :=
  (val_main_v71_eq m c).trans (out_eq _ _ _ _ _ _ _ _ _ _ _ _ _ _ t ht)

end Run

end Cert.ReferenceIdeal.RefValue

end
-- ==== Proof.Val.Algebraic.lean ====
import proofs.«411147_j8194797600876_3_alg».proof.Defs
import proofs.«411147_j8194797600876_3_alg».proof.Proof.Gen.KernelIdeal
import proofs.«411147_j8194797600876_3_alg».proof.Proof.Gen.ReferenceIdeal
import proofs.«411147_j8194797600876_3_alg».proof.Proof.Gen.Pre_finite_inputs
import proofs.«411147_j8194797600876_3_alg».proof.Proof.KI.Claims
import proofs.«411147_j8194797600876_3_alg».proof.Proof.KI.Read
import proofs.«411147_j8194797600876_3_alg».proof.Proof.KI.Inst
import proofs.«411147_j8194797600876_3_alg».proof.Proof.KI.R0
import proofs.«411147_j8194797600876_3_alg».proof.Proof.KI.R3
import proofs.«411147_j8194797600876_3_alg».proof.Proof.Val.Bridge
import proofs.«411147_j8194797600876_3_alg».proof.Proof.Val.Host
import proofs.«411147_j8194797600876_3_alg».proof.Proof.Val.Ref

set_option maxRecDepth 16384

noncomputable section

namespace Cert.Proof.Algebraic

open Idealize.ShloMosaic Idealize.ShloMosaic.TcCoe Idealize.ShloMosaic.ValueIdx
open Idealize.SL.Sem
open Idealize.ShloMosaic.Pipeline (Dat)

section Kernel

open Cert.KernelIdeal Cert.KernelIdeal.Gen Cert.KernelIdeal.Run Cert.KernelIdeal.Bridge

variable (m : (ℓ : Loc nD τ sig) → Buf (Elt Ideal) ℓ)

/-- The embedded row and the two column bands of the attention weight array. -/
abbrev e0 (c : Dev nD) : Vec Ideal S1x1024 .f32 := R0.embRow (W3 m) (a0 m) c
abbrev wlo (c : Dev nD) : Vec Ideal S2048x1024 .f32 := R0.iblk0 (W3 m) (a0 m) c 1 (R0.t0 (a0 m))
abbrev whi (c : Dev nD) : Vec Ideal S2048x1024 .f32 := R0.iblk0 (W3 m) (a0 m) c 2 (R0.t0 (a0 m))

theorem row_eq (T : S50257x1024.Idx → EReal) (n : Nat) (hn : n < 50257) (t : Fin 50257) (h : n = t.val) (k : Fin 1024)
    (h1 : k.val < 1024) : T (ix2 (⟨n, hn⟩ : Fin 50257) (⟨k.val, h1⟩ : Fin 1024)) = T (ix2 t k) := by
  subst h; rfl

theorem stage0_h70 (c : Dev nD) : (x70 (a0 m) (d0c m) c : Vec Ideal S1x1024 .f32) = e0 m c := by
  unfold x70
  exact R0.final0_5 (W3 m) (a0 m) (hchk m) c

theorem stage0_h71 (c : Dev nD) : (x71 (a0 m) (d0c m) c : Vec Ideal S1x2048 .f32)
    = k0_pay1 (e0 m c) (V3 m c main_v0) (wlo m c) (whi m c) (V3 m c main_v2) := by
  unfold x71
  refine (R0.final0_6 (W3 m) (a0 m) (hchk m) c).trans ?_
  rw [R0.iblk0_0_eq (W3 m) (a0 m) c, R0.iblk0_3_eq (W3 m) (a0 m) c]
  rfl

theorem stage0_h72 (c : Dev nD) : (x72 (a0 m) (d0c m) c : Vec Ideal S1x1024 .f32)
    = k0_pay2 (e0 m c) (V3 m c main_v0) (wlo m c) (whi m c) (V3 m c main_v2) (V3 m c main_arg2) := by
  unfold x72
  refine (R0.final0_7 (W3 m) (a0 m) (hchk m) c).trans ?_
  rw [R0.iblk0_0_eq (W3 m) (a0 m) c, R0.iblk0_3_eq (W3 m) (a0 m) c, R0.iblk0_4_eq (W3 m) (a0 m) c]
  rfl

theorem stage0_he (t : Fin 50257)
    (ht : (m (((0 : Dev nD) : Thread nD τ).loc main_arg0) : IVec S1 32) (ix1 0) = BitVec.ofNat 32 t.val) (c : Dev nD) (k : Fin 1024) :
    e0 m c (ix2 (0 : Fin 1) k) = (V3 m c main_arg3 : Vec Ideal S50257x1024 .f32) (ix2 t k) :=
  (R0.embRow_apply (W3 m) (a0 m) (hchk m) c (ix2 (0 : Fin 1) k)).trans
    (row_eq (V3 m c main_arg3) _ _ t (tok0_of_token m t ht) k _)

theorem stage0_hlo (c : Dev nD) (j : Fin 2048) (k : Fin 1024) :
    wlo m c (ix2 j k) = (V3 m c main_arg4 : Vec Ideal S2048x2048 .f32) (ix2 j ⟨k.val, Nat.lt_of_lt_of_le k.isLt (by decide)⟩) :=
  R0.iblk0_1_apply (W3 m) (a0 m) c (R0.t0 (a0 m)) (ix2 j k)

theorem stage0_hhi (c : Dev nD) (j : Fin 2048) (k : Fin 1024) :
    whi m c (ix2 j k) = (V3 m c main_arg4 : Vec Ideal S2048x2048 .f32) (ix2 j ⟨1024 + k.val, Nat.add_lt_add_left k.isLt 1024⟩) :=
  R0.iblk0_2_apply (W3 m) (a0 m) c (R0.t0 (a0 m)) (ix2 j k)

/-- The attention region's results for the token `t`: the embedded row is row `t` of the table. -/
theorem stage0 (t : Fin 50257)
    (ht : (m (((0 : Dev nD) : Thread nD τ).loc main_arg0) : IVec S1 32) (ix1 0) = BitVec.ofNat 32 t.val) (c : Dev nD) :
    Stage0 m (a0 m) (d0c m) c t (e0 m c) (wlo m c) (whi m c) :=
  ⟨stage0_h70 m c, stage0_h71 m c, stage0_h72 m c, stage0_he m t ht c, stage0_hlo m c, stage0_hhi m c⟩

/-- The log-softmax stretch leaves the row log-softmax of the projection's result. -/
theorem htail (U : Valuation τ sig (Elt Ideal)) :
    (StableHlo.after hostOps4 U main_v11 : Spec.Mat 1 50257) = Spec.logSoftmaxRow (U main_v10 : Spec.Mat 1 50257) :=
  (HostVal.after_hostOps4_lsmTail U).trans (HostVal.lsmTail_eq _)

/-- The kernel program's three results at the projection's result `x`. -/
theorem kernel_vals (t : Fin 50257)
    (ht : (m (((0 : Dev nD) : Thread nD τ).loc main_arg0) : IVec S1 32) (ix1 0) = BitVec.ofNat 32 t.val) (c : Dev nD)
    (x : Buf (Elt Ideal) ((c : Thread nD τ).loc main_v10))
    (hx : x = (R3.dat3 (F := Ideal) (W6 m (a0 m) (d0c m)) c).arrAt 3 cfg3.N) :
    (U9 m (a0 m) (d0c m) c x main_v11 : Spec.Mat 1 50257) = Spec.logSoftmaxRow (sLogits m c t)
      ∧ (∀ k : Fin 1024, (U9 m (a0 m) (d0c m) c x main_v12 : S1x1x1024.Idx → EReal) (ix3 (0 : Fin 1) (0 : Fin 1) k)
            = sGru m c t (ix2 (0 : Fin 1) k))
      ∧ (U9 m (a0 m) (d0c m) c x main_v7_1 : Spec.Mat 1 2048) = sAttn m c t := by
  have S := stage0 m t ht c
  have h10 : (x : Spec.Mat 1 50257) = sLogits m c t :=
    x10_eq S x fun j => by rw [hx]; exact R3.final3_ideal (W6 m (a0 m) (d0c m)) c j
  refine ⟨?_, fun k => ?_, ?_⟩
  · exact (U9_v11 m (a0 m) (d0c m) c x).trans (out_eq x h10 (htail))
  · exact (U9_v12_apply m (a0 m) (d0c m) c x k).trans (congrFun (x9_eq S) (ix2 (0 : Fin 1) k))
  · exact (U9_v7_1 m (a0 m) (d0c m) c x).trans (x71_eq S)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The three results as arrays. -/
def v0f (t : Fin 50257) (c : Dev nD) : S1x50257.Idx → EReal := Spec.logSoftmaxRow (sLogits m c t)
def v1f (t : Fin 50257) (c : Dev nD) : S1x1x1024.Idx → EReal :=
  fun i => sGru m c t (ix2 (0 : Fin 1) ⟨(i 2).val, (i 2).isLt⟩)
def v2f (t : Fin 50257) (c : Dev nD) : S1x2048.Idx → EReal := sAttn m c t

/-- Two arrays [1, 1, n] agree when they agree at every (0, 0, k). -/
theorem ext_1_1_n (f g : S1x1x1024.Idx → EReal) (h : ∀ k : Fin 1024, f (ix3 (0 : Fin 1) (0 : Fin 1) k) = g (ix3 (0 : Fin 1) (0 : Fin 1) k)) :
    f = g := by
  funext i
  obtain ⟨u, v, k, rfl⟩ : ∃ (u v : Fin 1) (k : Fin 1024), i = ix3 u v k := ⟨i 0, i 1, i 2, eq_ix3 i⟩
  obtain rfl : u = 0 := Subsingleton.elim _ _
  obtain rfl : v = 0 := Subsingleton.elim _ _
  exact h k

end Kernel

/-- The reference's frame is its run with the results dropped. -/
theorem frame_ri : Cert.frame_ReferenceIdeal := fun m g _ =>
  (θ_run Cert.ReferenceIdeal.defs _ _).mono (fun _ h c => (h c).2.2.2) (Cert.ReferenceIdeal.ValueP.run (F := Ideal) m g)

open Cert.KernelIdeal.Run in
/-- Both programs end with the specification's three arrays of the launch arguments, on which the memories agree. -/
theorem algebraic : Cert.algebraic_KernelIdeal_ReferenceIdeal := by
  intro m g m' g' hpre hagree
  obtain ⟨t, ht⟩ := Cert.KernelIdeal.HostVal.token_of_pre m 0 (hpre 0)
  refine ⟨fun c => v0f m t c, fun c => v1f m t c, fun c => v2f m t c, ?_, ?_⟩
  · refine (θ_run _ _ _).mono (fun r h c => ?_) (run_at m false (hb3_loc m Cert.KernelIdeal.R3.rowLocal3_ideal) g)
    obtain ⟨x, hP, hx⟩ := h c
    have hx3 : x = (Cert.KernelIdeal.R3.dat3 (F := Ideal) (W6 m (a0 m) (d0c m)) c).arrAt 3 Cert.KernelIdeal.cfg3.N :=
      ((Cert.KernelIdeal.R3.dat3 (F := Ideal) (W6 m (a0 m) (d0c m)) c).toRForget_arrAt_iff (congrFun fgt3_false 3) Cert.KernelIdeal.cfg3.N x).mp hP
    obtain ⟨h11, h12, h71⟩ := kernel_vals m t ht c x hx3
    exact ⟨(hx _ (mem_uc Cert.KernelIdeal.main_v11 (by decide))).trans h11,
      (hx _ (mem_uc Cert.KernelIdeal.main_v12 (by decide))).trans (ext_1_1_n _ (v1f m t c) h12),
      (hx _ (mem_uc Cert.KernelIdeal.main_v7_1 (by decide))).trans h71, kept m _ _ r.2.mem c x hx⟩
  · refine (θ_run _ _ _).mono (fun r h c => ?_) (Cert.ReferenceIdeal.ValueP.run (F := Ideal) m' g')
    obtain ⟨a0, a1, a2, a3, a4, a5, a6, a7, a8, a9, a10, a11, a12, a13⟩ := hagree c
    have ht' : m' ((c.tc : Thread Cert.ReferenceIdeal.nD Cert.ReferenceIdeal.τ).loc Cert.ReferenceIdeal.main_arg0) (ix1 0) = BitVec.ofNat 32 t.val := by
      obtain rfl : c = 0 := Subsingleton.elim _ _
      rw [a0]; exact ht
    refine ⟨(h c).1.trans ((Cert.ReferenceIdeal.RefValue.ref_out m' c t ht').trans ?_),
      (h c).2.1.trans (ext_1_1_n _ (v1f m t c) fun k => (Cert.ReferenceIdeal.RefValue.ref_hidden m' c t ht' k).trans ?_),
      (h c).2.2.1.trans ((Cert.ReferenceIdeal.RefValue.ref_weights m' c t ht').trans ?_), (h c).2.2.2⟩
    · rw [a1, a2, a3, a4, a5, a6, a7, a8, a9, a10, a11, a12, a13]; rfl
    · rw [a1, a2, a3, a4, a5, a6, a7, a8, a9, a10, a11]; rfl
    · rw [a1, a3, a4, a5]; rfl

end Cert.Proof.Algebraic

end
-- ==== Proof.lean ====
/- One decode step of an attention decoder with a gated recurrent cell: the kernel program and the plain reference compute
   the same stage functions of their arguments over the extended reals (proof/Proof/Spec.lean), the one law used being
   that a sum over a joined contraction index splits at the join. The word-level program and its idealization are one text,
   run once generically in the float instance. Idealizing rewrote nothing, so the preservation conjunct is `True`. -/
import proofs.«411147_j8194797600876_3_alg».proof.Defs
import proofs.«411147_j8194797600876_3_alg».proof.Proof.Gen.Kernel
import proofs.«411147_j8194797600876_3_alg».proof.Proof.Gen.KernelIdeal
import proofs.«411147_j8194797600876_3_alg».proof.Proof.Gen.ReferenceIdeal
import proofs.«411147_j8194797600876_3_alg».proof.Proof.Gen.Pre_finite_inputs
import proofs.«411147_j8194797600876_3_alg».proof.Proof.K.Claims
import proofs.«411147_j8194797600876_3_alg».proof.Proof.KI.Claims
import proofs.«411147_j8194797600876_3_alg».proof.Proof.Val.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.Proof.Algebraic.frame_ri, trivial, Cert.Proof.Algebraic.algebraic⟩

end Cert.Proof

end
